-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S4x32 : S_.BroadcastsInDim S4x32 (![] : Fin 0 → Fin S4x32.rank)
  reducesTo_S4x32_S_d0_1 : S4x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part10 {F : FTy → Type} [FloatOps F] (main_arg30 : FVec F S32 .f32) (main_v165 : IVec S_ 1) (main_v169 : IVec S4x32 1) : IVec S_ 1 :=
  let main_c_68 : IVec S_ 1 := constantI S_ 1 1#1
  let main_v170 : IVec S_ 1 := (fun x v => Host.reduce IntOp.andi x v reducesTo_S4x32_S_d0_1 h_S_) main_v169 main_c_68
  let main_v171 : IVec S_ 1 := andi main_v165 main_v170
  let main_cst_69 : FVec F S_ .f32 := constant S_ .f32 0x3727C5AC#32
  let main_v172 : FVec F S32 .f32 := broadcastInDim S32 ![] bcast_S_S32 main_cst_69
  let main_v173 : FVec F S32 .f32 := addf main_arg30 main_v172
  let main_cst_70 : FVec F S_ .f32 := constant S_ .f32 0x00000000#32
  let main_v174 : FVec F S32 .f32 := broadcastInDim S32 ![] bcast_S_S32 main_cst_70
  let main_v175 : IVec S32 1 := cmpf .ogt main_v173 main_v174
  let main_c_71 : IVec S_ 1 := constantI S_ 1 1#1
  let main_v176 : IVec S_ 1 := (fun x v => Host.reduce IntOp.andi x v reducesTo_S32_S_d0 h_S_) main_v175 main_c_71
  let main_v177 : IVec S_ 1 := andi main_v171 main_v176
  main_v177

def fn_part9 {F : FTy → Type} [FloatOps F] (main_arg8 : FVec F S32 .f32) (main_arg18 : FVec F S3x32 .f32) (main_arg24 : FVec F S4x32 .f32) (main_arg30 : FVec F S32 .f32) (main_v153 : IVec S_ 1) : IVec S_ 1 :=
  let main_cst_60 : FVec F S_ .f32 := constant S_ .f32 0x3727C5AC#32
  let main_v154 : FVec F S32 .f32 := broadcastInDim S32 ![] bcast_S_S32 main_cst_60
  let main_v155 : FVec F S32 .f32 := addf main_arg8 main_v154
  let main_cst_61 : FVec F S_ .f32 := constant S_ .f32 0x00000000#32
  let main_v156 : FVec F S32 .f32 := broadcastInDim S32 ![] bcast_S_S32 main_cst_61
  let main_v157 : IVec S32 1 := cmpf .ogt main_v155 main_v156
  let main_c_62 : IVec S_ 1 := constantI S_ 1 1#1
  let main_v158 : IVec S_ 1 := (fun x v => Host.reduce IntOp.andi x v reducesTo_S32_S_d0 h_S_) main_v157 main_c_62
  let main_v159 : IVec S_ 1 := andi main_v153 main_v158
  let main_cst_63 : FVec F S_ .f32 := constant S_ .f32 0x3727C5AC#32
  let main_v160 : FVec F S3x32 .f32 := broadcastInDim S3x32 ![] bcast_S_S3x32 main_cst_63
  let main_v161 : FVec F S3x32 .f32 := addf main_arg18 main_v160
  let main_cst_64 : FVec F S_ .f32 := constant S_ .f32 0x00000000#32
  let main_v162 : FVec F S3x32 .f32 := broadcastInDim S3x32 ![] bcast_S_S3x32 main_cst_64
  let main_v163 : IVec S3x32 1 := cmpf .ogt main_v161 main_v162
  let main_c_65 : IVec S_ 1 := constantI S_ 1 1#1
  let main_v164 : IVec S_ 1 := (fun x v => Host.reduce IntOp.andi x v reducesTo_S3x32_S_d0_1 h_S_) main_v163 main_c_65
  let main_v165 : IVec S_ 1 := andi main_v159 main_v164
  let main_cst_66 : FVec F S_ .f32 := constant S_ .f32 0x3727C5AC#32
  let main_v166 : FVec F S4x32 .f32 := broadcastInDim S4x32 ![] bcast_S_S4x32 main_cst_66
  let main_v167 : FVec F S4x32 .f32 := addf main_arg24 main_v166
  let main_cst_67 : FVec F S_ .f32 := constant S_ .f32 0x00000000#32
  let main_v168 : FVec F S4x32 .f32 := broadcastInDim S4x32 ![] bcast_S_S4x32 main_cst_67
  let main_v169 : IVec S4x32 1 := cmpf .ogt main_v167 main_v168
  fn_part10 (F := F) main_arg30 main_v165 main_v169

def fn_part8 {F : FTy → Type} [FloatOps F] (main_arg8 : FVec F S32 .f32) (main_arg18 : FVec F S3x32 .f32) (main_arg24 : FVec F S4x32 .f32) (main_arg30 : FVec F S32 .f32) (main_arg31 : FVec F S32x10 .f32) (main_arg32 : FVec F S10 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S32 .f32 := Host.absf main_arg30
  let main_cst_54 : FVec F S_ .f32 := constant S_ .f32 0x7F800000#32
  let main_v140 : FVec F S32 .f32 := broadcastInDim S32 ![] bcast_S_S32 main_cst_54
  let main_v141 : IVec S32 1 := cmpf .olt main_v139 main_v140
  let main_c_55 : IVec S_ 1 := constantI S_ 1 1#1
  let main_v142 : IVec S_ 1 := (fun x v => Host.reduce IntOp.andi x v reducesTo_S32_S_d0 h_S_) main_v141 main_c_55
  let main_v143 : IVec S_ 1 := andi main_v138 main_v142
  let main_v144 : FVec F S32x10 .f32 := Host.absf main_arg31
  let main_cst_56 : FVec F S_ .f32 := constant S_ .f32 0x7F800000#32
  let main_v145 : FVec F S32x10 .f32 := broadcastInDim S32x10 ![] bcast_S_S32x10 main_cst_56
  let main_v146 : IVec S32x10 1 := cmpf .olt main_v144 main_v145
  let main_c_57 : IVec S_ 1 := constantI S_ 1 1#1
  let main_v147 : IVec S_ 1 := (fun x v => Host.reduce IntOp.andi x v reducesTo_S32x10_S_d0_1 h_S_) main_v146 main_c_57
  let main_v148 : IVec S_ 1 := andi main_v143 main_v147
  let main_v149 : FVec F S10 .f32 := Host.absf main_arg32
  let main_cst_58 : FVec F S_ .f32 := constant S_ .f32 0x7F800000#32
  let main_v150 : FVec F S10 .f32 := broadcastInDim S10 ![] bcast_S_S10 main_cst_58
  let main_v151 : IVec S10 1 := cmpf .olt main_v149 main_v150
  let main_c_59 : IVec S_ 1 := constantI S_ 1 1#1
  let main_v152 : IVec S_ 1 := (fun x v => Host.reduce IntOp.andi x v reducesTo_S10_S_d0 h_S_) main_v151 main_c_59
  let main_v153 : IVec S_ 1 := andi main_v148 main_v152
  fn_part9 (F := F) main_arg8 main_arg18 main_arg24 main_arg30 main_v153

def fn_part7 {F : FTy → Type} [FloatOps F] (main_arg8 : FVec F S32 .f32) (main_arg18 : FVec F S3x32 .f32) (main_arg24 : FVec F S4x32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32 .f32 := Host.absf main_arg27
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S32 .f32 := Host.absf main_arg28
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  let main_v134 : FVec F S32 .f32 := Host.absf main_arg29
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg8 main_arg18 main_arg24 main_arg30 main_arg31 main_arg32 main_v133 main_v136

def fn_part6 {F : FTy → Type} [FloatOps F] (main_arg8 : FVec F S32 .f32) (main_arg18 : FVec F S3x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v98 : IVec S_ 1) (main_v101 : IVec S4x32 1) (main_c_39 : IVec S_ 1) : IVec S_ 1 :=
  let main_v102 : IVec S_ 1 := (fun x v => Host.reduce IntOp.andi x v reducesTo_S4x32_S_d0_1 h_S_) main_v101 main_c_39
  let main_v103 : IVec S_ 1 := andi main_v98 main_v102
  let main_v104 : FVec F S4x32 .f32 := Host.absf main_arg23
  let main_cst_40 : FVec F S_ .f32 := constant S_ .f32 0x7F800000#32
  let main_v105 : FVec F S4x32 .f32 := broadcastInDim S4x32 ![] bcast_S_S4x32 main_cst_40
  let main_v106 : IVec S4x32 1 := cmpf .olt main_v104 main_v105
  let main_c_41 : IVec S_ 1 := constantI S_ 1 1#1
  let main_v107 : IVec S_ 1 := (fun x v => Host.reduce IntOp.andi x v reducesTo_S4x32_S_d0_1 h_S_) main_v106 main_c_41
  let main_v108 : IVec S_ 1 := andi main_v103 main_v107
  let main_v109 : FVec F S4x32 .f32 := Host.absf main_arg24
  let main_cst_42 : FVec F S_ .f32 := constant S_ .f32 0x7F800000#32
  let main_v110 : FVec F S4x32 .f32 := broadcastInDim S4x32 ![] bcast_S_S4x32 main_cst_42
  let main_v111 : IVec S4x32 1 := cmpf .olt main_v109 main_v110
  let main_c_43 : IVec S_ 1 := constantI S_ 1 1#1
  let main_v112 : IVec S_ 1 := (fun x v => Host.reduce IntOp.andi x v reducesTo_S4x32_S_d0_1 h_S_) main_v111 main_c_43
  let main_v113 : IVec S_ 1 := andi main_v108 main_v112
  let main_v114 : FVec F S32x32 .f32 := Host.absf main_arg25
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg26
  fn_part7 (F := F) main_arg8 main_arg18 main_arg24 main_arg27 main_arg28 main_arg29 main_arg30 main_arg31 main_arg32 main_v118 main_v119

def fn_part5 {F : FTy → Type} [FloatOps F] (main_arg8 : FVec F S32 .f32) (main_arg18 : FVec F S3x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v83 : IVec S_ 1) (main_v84 : FVec F S3x32x32 .f32) (main_cst_32 : FVec F S_ .f32) : IVec S_ 1 :=
  let main_v85 : FVec F S3x32x32 .f32 := broadcastInDim S3x32x32 ![] bcast_S_S3x32x32 main_cst_32
  let main_v86 : IVec S3x32x32 1 := cmpf .olt main_v84 main_v85
  let main_c_33 : IVec S_ 1 := constantI S_ 1 1#1
  let main_v87 : IVec S_ 1 := (fun x v => Host.reduce IntOp.andi x v reducesTo_S3x32x32_S_d0_1_2 h_S_) main_v86 main_c_33
  let main_v88 : IVec S_ 1 := andi main_v83 main_v87
  let main_v89 : FVec F S3x32 .f32 := Host.absf main_arg20
  let main_cst_34 : FVec F S_ .f32 := constant S_ .f32 0x7F800000#32
  let main_v90 : FVec F S3x32 .f32 := broadcastInDim S3x32 ![] bcast_S_S3x32 main_cst_34
  let main_v91 : IVec S3x32 1 := cmpf .olt main_v89 main_v90
  let main_c_35 : IVec S_ 1 := constantI S_ 1 1#1
  let main_v92 : IVec S_ 1 := (fun x v => Host.reduce IntOp.andi x v reducesTo_S3x32_S_d0_1 h_S_) main_v91 main_c_35
  let main_v93 : IVec S_ 1 := andi main_v88 main_v92
  let main_v94 : FVec F S4x32 .f32 := Host.absf main_arg21
  let main_cst_36 : FVec F S_ .f32 := constant S_ .f32 0x7F800000#32
  let main_v95 : FVec F S4x32 .f32 := broadcastInDim S4x32 ![] bcast_S_S4x32 main_cst_36
  let main_v96 : IVec S4x32 1 := cmpf .olt main_v94 main_v95
  let main_c_37 : IVec S_ 1 := constantI S_ 1 1#1
  let main_v97 : IVec S_ 1 := (fun x v => Host.reduce IntOp.andi x v reducesTo_S4x32_S_d0_1 h_S_) main_v96 main_c_37
  let main_v98 : IVec S_ 1 := andi main_v93 main_v97
  let main_v99 : FVec F S4x32 .f32 := Host.absf main_arg22
  let main_cst_38 : FVec F S_ .f32 := constant S_ .f32 0x7F800000#32
  let main_v100 : FVec F S4x32 .f32 := broadcastInDim S4x32 ![] bcast_S_S4x32 main_cst_38
  let main_v101 : IVec S4x32 1 := cmpf .olt main_v99 main_v100
  let main_c_39 : IVec S_ 1 := constantI S_ 1 1#1
  fn_part6 (F := F) main_arg8 main_arg18 main_arg23 main_arg24 main_arg25 main_arg26 main_arg27 main_arg28 main_arg29 main_arg30 main_arg31 main_arg32 main_v98 main_v101 main_c_39

def fn_part4 {F : FTy → Type} [FloatOps F] (main_arg8 : FVec F S32 .f32) (main_arg16 : FVec F S3x32 .f32) (main_arg17 : FVec F S3x32 .f32) (main_arg18 : FVec F S3x32 .f32) (main_arg19 : FVec F S3x32x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v63 : IVec S_ 1) (main_v67 : IVec S_ 1) : IVec S_ 1 :=
  let main_v68 : IVec S_ 1 := andi main_v63 main_v67
  let main_v69 : FVec F S3x32 .f32 := Host.absf main_arg16
  let main_cst_26 : FVec F S_ .f32 := constant S_ .f32 0x7F800000#32
  let main_v70 : FVec F S3x32 .f32 := broadcastInDim S3x32 ![] bcast_S_S3x32 main_cst_26
  let main_v71 : IVec S3x32 1 := cmpf .olt main_v69 main_v70
  let main_c_27 : IVec S_ 1 := constantI S_ 1 1#1
  let main_v72 : IVec S_ 1 := (fun x v => Host.reduce IntOp.andi x v reducesTo_S3x32_S_d0_1 h_S_) main_v71 main_c_27
  let main_v73 : IVec S_ 1 := andi main_v68 main_v72
  let main_v74 : FVec F S3x32 .f32 := Host.absf main_arg17
  let main_cst_28 : FVec F S_ .f32 := constant S_ .f32 0x7F800000#32
  let main_v75 : FVec F S3x32 .f32 := broadcastInDim S3x32 ![] bcast_S_S3x32 main_cst_28
  let main_v76 : IVec S3x32 1 := cmpf .olt main_v74 main_v75
  let main_c_29 : IVec S_ 1 := constantI S_ 1 1#1
  let main_v77 : IVec S_ 1 := (fun x v => Host.reduce IntOp.andi x v reducesTo_S3x32_S_d0_1 h_S_) main_v76 main_c_29
  let main_v78 : IVec S_ 1 := andi main_v73 main_v77
  let main_v79 : FVec F S3x32 .f32 := Host.absf main_arg18
  let main_cst_30 : FVec F S_ .f32 := constant S_ .f32 0x7F800000#32
  let main_v80 : FVec F S3x32 .f32 := broadcastInDim S3x32 ![] bcast_S_S3x32 main_cst_30
  let main_v81 : IVec S3x32 1 := cmpf .olt main_v79 main_v80
  let main_c_31 : IVec S_ 1 := constantI S_ 1 1#1
  let main_v82 : IVec S_ 1 := (fun x v => Host.reduce IntOp.andi x v reducesTo_S3x32_S_d0_1 h_S_) main_v81 main_c_31
  let main_v83 : IVec S_ 1 := andi main_v78 main_v82
  let main_v84 : FVec F S3x32x32 .f32 := Host.absf main_arg19
  let main_cst_32 : FVec F S_ .f32 := constant S_ .f32 0x7F800000#32
  fn_part5 (F := F) main_arg8 main_arg18 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg8 : FVec F S32 .f32) (main_arg13 : FVec F S3x32x32 .f32) (main_arg14 : FVec F S3x32 .f32) (main_arg15 : FVec F S3x32 .f32) (main_arg16 : FVec F S3x32 .f32) (main_arg17 : FVec F S3x32 .f32) (main_arg18 : FVec F S3x32 .f32) (main_arg19 : FVec F S3x32x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S3x32x32 .f32 := Host.absf main_arg13
  let main_cst_20 : FVec F S_ .f32 := constant S_ .f32 0x7F800000#32
  let main_v55 : FVec F S3x32x32 .f32 := broadcastInDim S3x32x32 ![] bcast_S_S3x32x32 main_cst_20
  let main_v56 : IVec S3x32x32 1 := cmpf .olt main_v54 main_v55
  let main_c_21 : IVec S_ 1 := constantI S_ 1 1#1
  let main_v57 : IVec S_ 1 := (fun x v => Host.reduce IntOp.andi x v reducesTo_S3x32x32_S_d0_1_2 h_S_) main_v56 main_c_21
  let main_v58 : IVec S_ 1 := andi main_v53 main_v57
  let main_v59 : FVec F S3x32 .f32 := Host.absf main_arg14
  let main_cst_22 : FVec F S_ .f32 := constant S_ .f32 0x7F800000#32
  let main_v60 : FVec F S3x32 .f32 := broadcastInDim S3x32 ![] bcast_S_S3x32 main_cst_22
  let main_v61 : IVec S3x32 1 := cmpf .olt main_v59 main_v60
  let main_c_23 : IVec S_ 1 := constantI S_ 1 1#1
  let main_v62 : IVec S_ 1 := (fun x v => Host.reduce IntOp.andi x v reducesTo_S3x32_S_d0_1 h_S_) main_v61 main_c_23
  let main_v63 : IVec S_ 1 := andi main_v58 main_v62
  let main_v64 : FVec F S3x32 .f32 := Host.absf main_arg15
  let main_cst_24 : FVec F S_ .f32 := constant S_ .f32 0x7F800000#32
  let main_v65 : FVec F S3x32 .f32 := broadcastInDim S3x32 ![] bcast_S_S3x32 main_cst_24
  let main_v66 : IVec S3x32 1 := cmpf .olt main_v64 main_v65
  let main_c_25 : IVec S_ 1 := constantI S_ 1 1#1
  let main_v67 : IVec S_ 1 := (fun x v => Host.reduce IntOp.andi x v reducesTo_S3x32_S_d0_1 h_S_) main_v66 main_c_25
  fn_part4 (F := F) main_arg8 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg8 : FVec F S32 .f32) (main_arg9 : FVec F S32x32 .f32) (main_arg10 : FVec F S32 .f32) (main_arg11 : FVec F S32x32 .f32) (main_arg12 : FVec F S32 .f32) (main_arg13 : FVec F S3x32x32 .f32) (main_arg14 : FVec F S3x32 .f32) (main_arg15 : FVec F S3x32 .f32) (main_arg16 : FVec F S3x32 .f32) (main_arg17 : FVec F S3x32 .f32) (main_arg18 : FVec F S3x32 .f32) (main_arg19 : FVec F S3x32x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg8 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S3x32x32 .f32) (main_arg14 : FVec F S3x32 .f32) (main_arg15 : FVec F S3x32 .f32) (main_arg16 : FVec F S3x32 .f32) (main_arg17 : FVec F S3x32 .f32) (main_arg18 : FVec F S3x32 .f32) (main_arg19 : FVec F S3x32x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32 .f32) (main_arg6 : FVec F S32 .f32) (main_arg7 : FVec F S32 .f32) (main_arg8 : FVec F S32 .f32) (main_arg9 : FVec F S32x32 .f32) (main_arg10 : FVec F S32 .f32) (main_arg11 : FVec F S32x32 .f32) (main_arg12 : FVec F S32 .f32) (main_arg13 : FVec F S3x32x32 .f32) (main_arg14 : FVec F S3x32 .f32) (main_arg15 : FVec F S3x32 .f32) (main_arg16 : FVec F S3x32 .f32) (main_arg17 : FVec F S3x32 .f32) (main_arg18 : FVec F S3x32 .f32) (main_arg19 : FVec F S3x32x32 .f32) (main_arg20 : FVec F S3x32 .f32) (main_arg21 : FVec F S4x32 .f32) (main_arg22 : FVec F S4x32 .f32) (main_arg23 : FVec F S4x32 .f32) (main_arg24 : FVec F S4x32 .f32) (main_arg25 : FVec F S32x32 .f32) (main_arg26 : FVec F S32 .f32) (main_arg27 : FVec F S32 .f32) (main_arg28 : FVec F S32 .f32) (main_arg29 : FVec F S32 .f32) (main_arg30 : FVec F S32 .f32) (main_arg31 : FVec F S32x10 .f32) (main_arg32 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S_ : Shape := ⟨0, ![]⟩
abbrev S1600000x1 : Shape := ⟨2, ![1600000, 1]⟩
abbrev S1600000x32 : Shape := ⟨2, ![1600000, 32]⟩
abbrev S1x32x32 : Shape := ⟨3, ![1, 32, 32]⟩
abbrev S1000x32 : Shape := ⟨2, ![1000, 32]⟩
abbrev S100000x1 : Shape := ⟨2, ![100000, 1]⟩
abbrev S1x10 : Shape := ⟨2, ![1, 10]⟩
abbrev S1000x10 : Shape := ⟨2, ![1000, 10]⟩

abbrev nBuf : Space → Nat
  | .hbm => 226
  | .vmem => 88
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32, .f32⟩
  | 6 => ⟨S32, .f32⟩
  | 7 => ⟨S32, .f32⟩
  | 8 => ⟨S32, .f32⟩
  | 9 => ⟨S32x32, .f32⟩
  | 10 => ⟨S32, .f32⟩
  | 11 => ⟨S32x32, .f32⟩
  | 12 => ⟨S32, .f32⟩
  | 13 => ⟨S3x32x32, .f32⟩
  | 14 => ⟨S3x32, .f32⟩
  | 15 => ⟨S3x32, .f32⟩
  | 16 => ⟨S3x32, .f32⟩
  | 17 => ⟨S3x32, .f32⟩
  | 18 => ⟨S3x32, .f32⟩
  | 19 => ⟨S3x32x32, .f32⟩
  | 20 => ⟨S3x32, .f32⟩
  | 21 => ⟨S4x32, .f32⟩
  | 22 => ⟨S4x32, .f32⟩
  | 23 => ⟨S4x32, .f32⟩
  | 24 => ⟨S4x32, .f32⟩
  | 25 => ⟨S32x32, .f32⟩
  | 26 => ⟨S32, .f32⟩
  | 27 => ⟨S32, .f32⟩
  | 28 => ⟨S32, .f32⟩
  | 29 => ⟨S32, .f32⟩
  | 30 => ⟨S32, .f32⟩
  | 31 => ⟨S32x10, .f32⟩
  | 32 => ⟨S10, .f32⟩
  | 33 => ⟨S1x1600000, .i32⟩
  | 34 => ⟨S1600000, .i32⟩
  | 35 => ⟨S1x1600000, .i32⟩
  | 36 => ⟨S1600000, .i32⟩
  | 37 => ⟨S1x32, .f32⟩
  | 38 => ⟨S1x32, .f32⟩
  | 39 => ⟨S1x32, .f32⟩
  | 40 => ⟨S1x32, .f32⟩
  | 41 => ⟨S1x32, .f32⟩
  | 42 => ⟨S100000x32, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x32, .f32⟩
  | 52 => ⟨S_, .f32⟩
  | 53 => ⟨S100000x32, .f32⟩
  | 54 => ⟨S1600000x1, .i32⟩
  | 55 => ⟨S100000x32, .f32⟩
  | 56 => ⟨S1x32, .f32⟩
  | 57 => ⟨S32, .f32⟩
  | 58 => ⟨S1x32, .f32⟩
  | 59 => ⟨S32, .f32⟩
  | 60 => ⟨S1x32, .f32⟩
  | 61 => ⟨S32, .f32⟩
  | 62 => ⟨S1x32, .f32⟩
  | 63 => ⟨S32, .f32⟩
  | 64 => ⟨S1x32, .f32⟩
  | 65 => ⟨S1x32, .f32⟩
  | 66 => ⟨S1x32, .f32⟩
  | 67 => ⟨S1x32, .f32⟩
  | 68 => ⟨S1x32, .f32⟩
  | 69 => ⟨S1x32, .f32⟩
  | 70 => ⟨S100000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x32, .f32⟩
  | 80 => ⟨S_, .f32⟩
  | 81 => ⟨S100000x32, .f32⟩
  | 82 => ⟨S1600000x1, .i32⟩
  | 83 => ⟨S100000x32, .f32⟩
  | 84 => ⟨S1x32x32, .f32⟩
  | 85 => ⟨S32x32, .f32⟩
  | 86 => ⟨S1x32, .f32⟩
  | 87 => ⟨S32, .f32⟩
  | 88 => ⟨S1x32, .f32⟩
  | 89 => ⟨S32, .f32⟩
  | 90 => ⟨S1x32, .f32⟩
  | 91 => ⟨S32, .f32⟩
  | 92 => ⟨S1x32, .f32⟩
  | 93 => ⟨S32, .f32⟩
  | 94 => ⟨S1x32, .f32⟩
  | 95 => ⟨S32, .f32⟩
  | 96 => ⟨S1x32x32, .f32⟩
  | 97 => ⟨S32x32, .f32⟩
  | 98 => ⟨S1x32, .f32⟩
  | 99 => ⟨S32, .f32⟩
  | 100 => ⟨S1x32, .f32⟩
  | 101 => ⟨S32, .f32⟩
  | 102 => ⟨S1x32, .f32⟩
  | 103 => ⟨S32, .f32⟩
  | 104 => ⟨S1x32, .f32⟩
  | 105 => ⟨S32, .f32⟩
  | 106 => ⟨S1x32, .f32⟩
  | 107 => ⟨S32, .f32⟩
  | 108 => ⟨S1x32, .f32⟩
  | 109 => ⟨S1x32, .f32⟩
  | 110 => ⟨S1x32, .f32⟩
  | 111 => ⟨S1x32, .f32⟩
  | 112 => ⟨S1x32, .f32⟩
  | 113 => ⟨S1x32, .f32⟩
  | 114 => ⟨S1x32, .f32⟩
  | 115 => ⟨S1x32, .f32⟩
  | 116 => ⟨S1x32, .f32⟩
  | 117 => ⟨S1x32, .f32⟩
  | 118 => ⟨S100000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x128, .f32⟩

abbrev hbmTy0_1 (i : Nat) : BufTy := match i % 128 with
  | 0 => ⟨S_, .f32⟩
  | 1 => ⟨S100000x32, .f32⟩
  | 2 => ⟨S1600000x1, .i32⟩
  | 3 => ⟨S100000x32, .f32⟩
  | 4 => ⟨S1x32x32, .f32⟩
  | 5 => ⟨S32x32, .f32⟩
  | 6 => ⟨S1x32, .f32⟩
  | 7 => ⟨S32, .f32⟩
  | 8 => ⟨S1x32, .f32⟩
  | 9 => ⟨S32, .f32⟩
  | 10 => ⟨S1x32, .f32⟩
  | 11 => ⟨S32, .f32⟩
  | 12 => ⟨S1x32, .f32⟩
  | 13 => ⟨S32, .f32⟩
  | 14 => ⟨S1x32, .f32⟩
  | 15 => ⟨S32, .f32⟩
  | 16 => ⟨S1x32x32, .f32⟩
  | 17 => ⟨S32x32, .f32⟩
  | 18 => ⟨S1x32, .f32⟩
  | 19 => ⟨S32, .f32⟩
  | 20 => ⟨S1x32, .f32⟩
  | 21 => ⟨S32, .f32⟩
  | 22 => ⟨S1x32, .f32⟩
  | 23 => ⟨S32, .f32⟩
  | 24 => ⟨S1x32, .f32⟩
  | 25 => ⟨S32, .f32⟩
  | 26 => ⟨S1x32, .f32⟩
  | 27 => ⟨S32, .f32⟩
  | 28 => ⟨S1x32, .f32⟩
  | 29 => ⟨S1x32, .f32⟩
  | 30 => ⟨S1x32, .f32⟩
  | 31 => ⟨S1x32, .f32⟩
  | 32 => ⟨S1x32, .f32⟩
  | 33 => ⟨S1x32, .f32⟩
  | 34 => ⟨S1x32, .f32⟩
  | 35 => ⟨S1x32, .f32⟩
  | 36 => ⟨S1x32, .f32⟩
  | 37 => ⟨S1x32, .f32⟩
  | 38 => ⟨S100000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S1x32x32, .f32⟩
  | 53 => ⟨S32x32, .f32⟩
  | 54 => ⟨S1x32, .f32⟩
  | 55 => ⟨S32, .f32⟩
  | 56 => ⟨S1x32, .f32⟩
  | 57 => ⟨S32, .f32⟩
  | 58 => ⟨S1x32, .f32⟩
  | 59 => ⟨S32, .f32⟩
  | 60 => ⟨S1x32, .f32⟩
  | 61 => ⟨S32, .f32⟩
  | 62 => ⟨S1x32, .f32⟩
  | 63 => ⟨S32, .f32⟩
  | 64 => ⟨S1x32x32, .f32⟩
  | 65 => ⟨S32x32, .f32⟩
  | 66 => ⟨S1x32, .f32⟩
  | 67 => ⟨S32, .f32⟩
  | 68 => ⟨S1x32, .f32⟩
  | 69 => ⟨S32, .f32⟩
  | 70 => ⟨S1x32, .f32⟩
  | 71 => ⟨S32, .f32⟩
  | 72 => ⟨S1x32, .f32⟩
  | 73 => ⟨S32, .f32⟩
  | 74 => ⟨S1x32, .f32⟩
  | 75 => ⟨S32, .f32⟩
  | 76 => ⟨S1x32, .f32⟩
  | 77 => ⟨S1x32, .f32⟩
  | 78 => ⟨S1x32, .f32⟩
  | 79 => ⟨S1x32, .f32⟩
  | 80 => ⟨S1x32, .f32⟩
  | 81 => ⟨S1x32, .f32⟩
  | 82 => ⟨S1x32, .f32⟩
  | 83 => ⟨S1x32, .f32⟩
  | 84 => ⟨S1x32, .f32⟩
  | 85 => ⟨S1x32, .f32⟩
  | 86 => ⟨S100000x32, .f32⟩
  | 87 => ⟨S_, .f32⟩
  | 88 => ⟨S1000x32, .f32⟩
  | 89 => ⟨S100000x1, .i32⟩
  | 90 => ⟨S1000x32, .f32⟩
  | 91 => ⟨S1x32, .f32⟩
  | 92 => ⟨S1x32, .f32⟩
  | 93 => ⟨S1x32, .f32⟩
  | 94 => ⟨S1x32, .f32⟩
  | 95 => ⟨S1x32, .f32⟩
  | 96 => ⟨S1x10, .f32⟩
  | 97 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S32x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S1x32, .f32⟩
  | .local _ .vmem, ⟨19, _⟩ => ⟨S1x32, .f32⟩
  | .local _ .vmem, ⟨20, _⟩ => ⟨S1x32, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S32x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S32x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S10000x32, .f32⟩
  | .local _ .vmem, ⟨44, _⟩ => ⟨S10000x32, .f32⟩
  | .local _ .vmem, ⟨45, _⟩ => ⟨S10000x32, .f32⟩
  | .local _ .vmem, ⟨46, _⟩ => ⟨S32x32, .f32⟩
  | .local _ .vmem, ⟨47, _⟩ => ⟨S1x32, .f32⟩
  | .local _ .vmem, ⟨48, _⟩ => ⟨S1x32, .f32⟩
  | .local _ .vmem, ⟨49, _⟩ => ⟨S1x32, .f32⟩
  | .local _ .vmem, ⟨50, _⟩ => ⟨S1x32, .f32⟩
  | .local _ .vmem, ⟨51, _⟩ => ⟨S1x32, .f32⟩
  | .local _ .vmem, ⟨52, _⟩ => ⟨S32x32, .f32⟩
  | .local _ .vmem, ⟨53, _⟩ => ⟨S1x32, .f32⟩
  | .local _ .vmem, ⟨54, _⟩ => ⟨S1x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S10000x32, .f32⟩
  | .local _ .vmem, ⟨59, _⟩ => ⟨S10000x32, .f32⟩
  | .local _ .vmem, ⟨60, _⟩ => ⟨S10000x32, .f32⟩
  | .local _ .vmem, ⟨61, _⟩ => ⟨S10000x32, .f32⟩
  | .local _ .vmem, ⟨62, _⟩ => ⟨S10000x32, .f32⟩
  | .local _ .vmem, ⟨63, _⟩ => ⟨S10000x32, .f32⟩
  | .local _ .vmem, ⟨64, _⟩ => ⟨S32x32, .f32⟩
  | .local _ .vmem, ⟨65, _⟩ => ⟨S1x32, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S1x32, .f32⟩
  | .local _ .vmem, ⟨70, _⟩ => ⟨S32x32, .f32⟩
  | .local _ .vmem, ⟨71, _⟩ => ⟨S1x32, .f32⟩
  | .local _ .vmem, ⟨72, _⟩ => ⟨S1x32, .f32⟩
  | .local _ .vmem, ⟨73, _⟩ => ⟨S1x32, .f32⟩
  | .local _ .vmem, ⟨74, _⟩ => ⟨S1x32, .f32⟩
  | .local _ .vmem, ⟨75, _⟩ => ⟨S1x32, .f32⟩
  | .local _ .vmem, ⟨76, _⟩ => ⟨S10000x32, .f32⟩
  | .local _ .vmem, ⟨77, _⟩ => ⟨S10000x32, .f32⟩
  | .local _ .vmem, ⟨78, _⟩ => ⟨S1000x32, .f32⟩
  | .local _ .vmem, ⟨79, _⟩ => ⟨S32x32, .f32⟩
  | .local _ .vmem, ⟨80, _⟩ => ⟨S1x32, .f32⟩
  | .local _ .vmem, ⟨81, _⟩ => ⟨S1x32, .f32⟩
  | .local _ .vmem, ⟨82, _⟩ => ⟨S1x32, .f32⟩
  | .local _ .vmem, ⟨83, _⟩ => ⟨S1x32, .f32⟩
  | .local _ .vmem, ⟨84, _⟩ => ⟨S1x32, .f32⟩
  | .local _ .vmem, ⟨85, _⟩ => ⟨S32x10, .f32⟩
  | .local _ .vmem, ⟨86, _⟩ => ⟨S1x10, .f32⟩
  | .local _ .vmem, ⟨87, _⟩ => ⟨S1000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_c : Ref sig .tc := ⟨.hbm, 43, rfl⟩
abbrev main_v10 : Ref sig .tc := ⟨.hbm, 44, rfl⟩
abbrev main_v11 : Ref sig .tc := ⟨.hbm, 45, rfl⟩
abbrev main_c_0 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_1 : Ref sig .tc := ⟨.hbm, 71, rfl⟩
abbrev main_v35 : Ref sig .tc := ⟨.hbm, 72, rfl⟩
abbrev main_v36 : Ref sig .tc := ⟨.hbm, 73, rfl⟩
abbrev main_c_2 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_3 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_4 : Ref sig .tc := ⟨.hbm, 119, rfl⟩
abbrev main_v80 : Ref sig .tc := ⟨.hbm, 120, rfl⟩
abbrev main_v81 : Ref sig .tc := ⟨.hbm, 121, rfl⟩
abbrev main_c_5 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_6 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_7 : Ref sig .tc := ⟨.hbm, 167, rfl⟩
abbrev main_v125 : Ref sig .tc := ⟨.hbm, 168, rfl⟩
abbrev main_v126 : Ref sig .tc := ⟨.hbm, 169, rfl⟩
abbrev main_c_8 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_9 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_10 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_stg13_0 : Ref sig .tc := ⟨.vmem, 39, rfl⟩
abbrev cc2_stg14_0 : Ref sig .tc := ⟨.vmem, 40, rfl⟩
abbrev cc2_stg14_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg11_0 : Ref sig .tc := ⟨.vmem, 55, rfl⟩
abbrev cc3_stg12_0 : Ref sig .tc := ⟨.vmem, 56, rfl⟩
abbrev cc3_stg13_0 : Ref sig .tc := ⟨.vmem, 57, rfl⟩
abbrev cc3_stg14_0 : Ref sig .tc := ⟨.vmem, 58, rfl⟩
abbrev cc3_stg14_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg9_0 : Ref sig .tc := ⟨.vmem, 71, rfl⟩
abbrev cc4_stg10_0 : Ref sig .tc := ⟨.vmem, 72, rfl⟩
abbrev cc4_stg11_0 : Ref sig .tc := ⟨.vmem, 73, rfl⟩
abbrev cc4_stg12_0 : Ref sig .tc := ⟨.vmem, 74, rfl⟩
abbrev cc4_stg13_0 : Ref sig .tc := ⟨.vmem, 75, rfl⟩
abbrev cc4_stg14_0 : Ref sig .tc := ⟨.vmem, 76, rfl⟩
abbrev cc4_stg14_1 : Ref sig .tc := ⟨.vmem, 77, rfl⟩
abbrev cc5_stg0_0 : Ref sig .tc := ⟨.vmem, 78, rfl⟩
abbrev cc5_stg1_0 : Ref sig .tc := ⟨.vmem, 79, rfl⟩
abbrev cc5_stg2_0 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg6_0 : Ref sig .tc := ⟨.vmem, 84, rfl⟩
abbrev cc5_stg7_0 : Ref sig .tc := ⟨.vmem, 85, rfl⟩
abbrev cc5_stg8_0 : Ref sig .tc := ⟨.vmem, 86, rfl⟩
abbrev cc5_stg9_0 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38
abbrev cc2_sem13_0 : DmaSem sig := 39
abbrev cc2_sem14_0 : DmaSem sig := 40
abbrev cc2_sem14_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem11_0 : DmaSem sig := 55
abbrev cc3_sem12_0 : DmaSem sig := 56
abbrev cc3_sem13_0 : DmaSem sig := 57
abbrev cc3_sem14_0 : DmaSem sig := 58
abbrev cc3_sem14_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem3_0 : DmaSem sig := 65
abbrev cc4_sem4_0 : DmaSem sig := 66
abbrev cc4_sem5_0 : DmaSem sig := 67
abbrev cc4_sem6_0 : DmaSem sig := 68
abbrev cc4_sem7_0 : DmaSem sig := 69
abbrev cc4_sem8_0 : DmaSem sig := 70
abbrev cc4_sem9_0 : DmaSem sig := 71
abbrev cc4_sem10_0 : DmaSem sig := 72
abbrev cc4_sem11_0 : DmaSem sig := 73
abbrev cc4_sem12_0 : DmaSem sig := 74
abbrev cc4_sem13_0 : DmaSem sig := 75
abbrev cc4_sem14_0 : DmaSem sig := 76
abbrev cc4_sem14_1 : DmaSem sig := 77
abbrev cc5_sem0_0 : DmaSem sig := 78
abbrev cc5_sem1_0 : DmaSem sig := 79
abbrev cc5_sem2_0 : DmaSem sig := 80
abbrev cc5_sem3_0 : DmaSem sig := 81
abbrev cc5_sem4_0 : DmaSem sig := 82
abbrev cc5_sem5_0 : DmaSem sig := 83
abbrev cc5_sem6_0 : DmaSem sig := 84
abbrev cc5_sem7_0 : DmaSem sig := 85
abbrev cc5_sem8_0 : DmaSem sig := 86
abbrev cc5_sem9_0 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x32 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S10000x32 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S32x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x32 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x32 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S10000x32 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S32x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x32 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x32 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x32 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x32 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S10000x32 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1000x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S32x10 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x10 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1000x10 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  slices_S4x32_S1x32_0_0 : S4x32.Slices ![0, 0] S1x32
  shapeCasts_S1x32_S32 : S1x32.ShapeCasts S32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  slices_S4x32_S1x32_1_0 : S4x32.Slices ![1, 0] S1x32
  shapeCasts_S32x32_S32x32 : S32x32.ShapeCasts S32x32
  slices_S3x32x32_S1x32x32_1_0_0 : S3x32x32.Slices ![1, 0, 0] S1x32x32
  slices_S3x32_S1x32_1_0 : S3x32.Slices ![1, 0] S1x32
  slices_S4x32_S1x32_2_0 : S4x32.Slices ![2, 0] S1x32
  slices_S3x32x32_S1x32x32_2_0_0 : S3x32x32.Slices ![2, 0, 0] S1x32x32
  slices_S3x32_S1x32_2_0 : S3x32.Slices ![2, 0] S1x32
  slices_S4x32_S1x32_3_0 : S4x32.Slices ![3, 0] S1x32
  bcast_S_S1000x32 : S_.BroadcastsInDim S1000x32 (![] : Fin 0 → Fin S1000x32.rank)
  bcast_S100000_S100000x1_0 : S100000.BroadcastsInDim S100000x1 (![0] : Fin 1 → Fin S100000x1.rank)
  shapeCasts_S10_S1x10 : S10.ShapeCasts S1x10
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  broadcasts_S1x32_S1000x32 : S1x32.Broadcasts S1000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  scatter_S1000x32_S100000x1_S100000x32_1_0_0_1_wf : ScatterDims.WF S1000x32 S100000x1 S100000x32 [1] [0] [0] 1
  dot_S1000x32_S32x32_S1000x32_1_0_0_1_n_n_wf : DotDims.WF S1000x32 S32x32 S1000x32 [1] [0] [0] [1] [] []
  dot_S1000x32_S32x10_S1000x10_1_0_0_1_n_n_wf : DotDims.WF S1000x32 S32x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x32.size a ≤ S100000x32.size a
  hwx0_7 : ∀ i : grid0.Coords, EltTy.bits .f32 = 32 ∨ (Rect.block (s := S100000x32) S10000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x32.size a ≤ S100000x32.size a
  hwx1_10 : ∀ i : grid1.Coords, EltTy.bits .f32 = 32 ∨ (Rect.block (s := S100000x32) S10000x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x32.size a ≤ S1x32.size a
  hwx2_11 : ∀ i : grid2.Coords, EltTy.bits .f32 = 32 ∨ (Rect.block (s := S1x32) S1x32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x32.size a ≤ S1x32.size a
  hwx2_12 : ∀ i : grid2.Coords, EltTy.bits .f32 = 32 ∨ (Rect.block (s := S1x32) S1x32.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x32.size a ≤ S1x32.size a
  hwx2_13 : ∀ i : grid2.Coords, EltTy.bits .f32 = 32 ∨ (Rect.block (s := S1x32) S1x32.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S10000x32.size a ≤ S100000x32.size a
  hwx2_14 : ∀ i : grid2.Coords, EltTy.bits .f32 = 32 ∨ (Rect.block (s := S100000x32) S10000x32.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x32.size a ≤ S32x32.size a
  hwx3_2 : ∀ i : grid3.Coords, EltTy.bits .f32 = 32 ∨ (Rect.block (s := S32x32) S32x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S32x32.size a ≤ S32x32.size a
  hwx3_8 : ∀ i : grid3.Coords, EltTy.bits .f32 = 32 ∨ (Rect.block (s := S32x32) S32x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x32.size a ≤ S1x32.size a
  hwx3_9 : ∀ i : grid3.Coords, EltTy.bits .f32 = 32 ∨ (Rect.block (s := S1x32) S1x32.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x32.size a ≤ S1x32.size a
  hwx3_10 : ∀ i : grid3.Coords, EltTy.bits .f32 = 32 ∨ (Rect.block (s := S1x32) S1x32.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x32.size a ≤ S1x32.size a
  hwx3_11 : ∀ i : grid3.Coords, EltTy.bits .f32 = 32 ∨ (Rect.block (s := S1x32) S1x32.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x32.size a ≤ S1x32.size a
  hwx3_12 : ∀ i : grid3.Coords, EltTy.bits .f32 = 32 ∨ (Rect.block (s := S1x32) S1x32.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x32.size a ≤ S1x32.size a
  hwx3_13 : ∀ i : grid3.Coords, EltTy.bits .f32 = 32 ∨ (Rect.block (s := S1x32) S1x32.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S10000x32.size a ≤ S100000x32.size a
  hwx3_14 : ∀ i : grid3.Coords, EltTy.bits .f32 = 32 ∨ (Rect.block (s := S100000x32) S10000x32.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S32x32.size a ≤ S32x32.size a
  hwx4_8 : ∀ i : grid4.Coords, EltTy.bits .f32 = 32 ∨ (Rect.block (s := S32x32) S32x32.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x32.size a ≤ S1x32.size a
  hwx4_9 : ∀ i : grid4.Coords, EltTy.bits .f32 = 32 ∨ (Rect.block (s := S1x32) S1x32.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x32.size a ≤ S1x32.size a
  hwx4_10 : ∀ i : grid4.Coords, EltTy.bits .f32 = 32 ∨ (Rect.block (s := S1x32) S1x32.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x32.size a ≤ S1x32.size a
  hwx4_11 : ∀ i : grid4.Coords, EltTy.bits .f32 = 32 ∨ (Rect.block (s := S1x32) S1x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x32.size a ≤ S1x32.size a
  hwx4_12 : ∀ i : grid4.Coords, EltTy.bits .f32 = 32 ∨ (Rect.block (s := S1x32) S1x32.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x32.size a ≤ S1x32.size a
  hwx4_13 : ∀ i : grid4.Coords, EltTy.bits .f32 = 32 ∨ (Rect.block (s := S1x32) S1x32.size (cc4_transform_13 i) (hinb4_13 i)).WholeWords (EltTy.packing .f32)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S10000x32.size a ≤ S100000x32.size a
  hwx4_14 : ∀ i : grid4.Coords, EltTy.bits .f32 = 32 ∨ (Rect.block (s := S100000x32) S10000x32.size (cc4_transform_14 i) (hinb4_14 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1000x32.size a ≤ S1000x32.size a
  hwx5_0 : ∀ i : grid5.Coords, EltTy.bits .f32 = 32 ∨ (Rect.block (s := S1000x32) S1000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S32x10.size a ≤ S32x10.size a
  hwx5_7 : ∀ i : grid5.Coords, EltTy.bits .f32 = 32 ∨ (Rect.block (s := S32x10) S32x10.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x10.size a ≤ S1x10.size a
  hwx5_8 : ∀ i : grid5.Coords, EltTy.bits .f32 = 32 ∨ (Rect.block (s := S1x10) S1x10.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1000x10.size a ≤ S1000x10.size a
  hwx5_9 : ∀ i : grid5.Coords, EltTy.bits .f32 = 32 ∨ (Rect.block (s := S1000x10) S1000x10.size (cc5_transform_9 i) (hinb5_9 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x10_S1000x10_1_0_0_1_n_n : DotDims S1000x32 S32x10 S1000x10 where
  lhsContracting := [1]
  rhsContracting := [0]
  lhsNonContracting := [0]
  rhsNonContracting := [1]
  lhsBatch := []
  rhsBatch := []
  wf := dot_S1000x32_S32x10_S1000x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S10000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v9) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S10000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v34) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v74) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v75) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v76) S1x32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v77) S1x32.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v78) S1x32.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v79) S10000x32.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v79) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S32x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v114) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v115) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v116) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v117) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v103) S32x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v119) S1x32.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v120) S1x32.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v121) S1x32.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v122) S1x32.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v123) S1x32.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v124) S10000x32.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v124) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v134) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v159) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v160) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v161) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v162) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v163) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v148) S32x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v164) S1x32.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v165) S1x32.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v166) S1x32.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v167) S1x32.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v168) S1x32.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v169) S10000x32.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

abbrev win5_0 : Pipeline.Window sig grid5 :=
  Pipeline.Window.ofSpec (Memref.whole main_v172) S1000x32.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg25) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v173) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v174) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v175) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v176) S1x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v177) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg31) S32x10.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v178) S1x10.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v179) S1000x10.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S100000x32 : Shape := ⟨2, ![100000, 32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S1x32x32 : Shape := ⟨3, ![1, 32, 32]⟩
abbrev S1000x32 : Shape := ⟨2, ![1000, 32]⟩
abbrev S100000x1 : Shape := ⟨2, ![100000, 1]⟩
abbrev S1000x10 : Shape := ⟨2, ![1000, 10]⟩
abbrev S1x10 : Shape := ⟨2, ![1, 10]⟩

abbrev nBuf : Space → Nat
  | .hbm => 398
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32, .f32⟩
  | 6 => ⟨S32, .f32⟩
  | 7 => ⟨S32, .f32⟩
  | 8 => ⟨S32, .f32⟩
  | 9 => ⟨S32x32, .f32⟩
  | 10 => ⟨S32, .f32⟩
  | 11 => ⟨S32x32, .f32⟩
  | 12 => ⟨S32, .f32⟩
  | 13 => ⟨S3x32x32, .f32⟩
  | 14 => ⟨S3x32, .f32⟩
  | 15 => ⟨S3x32, .f32⟩
  | 16 => ⟨S3x32, .f32⟩
  | 17 => ⟨S3x32, .f32⟩
  | 18 => ⟨S3x32, .f32⟩
  | 19 => ⟨S3x32x32, .f32⟩
  | 20 => ⟨S3x32, .f32⟩
  | 21 => ⟨S4x32, .f32⟩
  | 22 => ⟨S4x32, .f32⟩
  | 23 => ⟨S4x32, .f32⟩
  | 24 => ⟨S4x32, .f32⟩
  | 25 => ⟨S32x32, .f32⟩
  | 26 => ⟨S32, .f32⟩
  | 27 => ⟨S32, .f32⟩
  | 28 => ⟨S32, .f32⟩
  | 29 => ⟨S32, .f32⟩
  | 30 => ⟨S32, .f32⟩
  | 31 => ⟨S32x10, .f32⟩
  | 32 => ⟨S10, .f32⟩
  | 33 => ⟨S1x1600000, .i32⟩
  | 34 => ⟨S1600000, .i32⟩
  | 35 => ⟨S1x1600000, .i32⟩
  | 36 => ⟨S1600000, .i32⟩
  | 37 => ⟨S100000x32, .f32⟩
  | 38 => ⟨S1x32, .f32⟩
  | 39 => ⟨S100000x32, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S32, .f32⟩
  | 46 => ⟨S32, .f32⟩
  | 47 => ⟨S32, .f32⟩
  | 48 => ⟨S1x32, .f32⟩
  | 49 => ⟨S100000x32, .f32⟩
  | 50 => ⟨S100000x32, .f32⟩
  | 51 => ⟨S1x32, .f32⟩
  | 52 => ⟨S100000x32, .f32⟩
  | 53 => ⟨S100000x32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x32, .f32⟩
  | 69 => ⟨S_, .f32⟩
  | 70 => ⟨S100000x32, .f32⟩
  | 71 => ⟨S1600000x1, .i32⟩
  | 72 => ⟨S100000x32, .f32⟩
  | 73 => ⟨S100000x32, .f32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x32, .f32⟩
  | 82 => ⟨S1x32, .f32⟩
  | 83 => ⟨S100000x32, .f32⟩
  | 84 => ⟨S100000x32, .f32⟩
  | 85 => ⟨S1x32, .f32⟩
  | 86 => ⟨S32, .f32⟩
  | 87 => ⟨S1x32, .f32⟩
  | 88 => ⟨S32, .f32⟩
  | 89 => ⟨S1x32, .f32⟩
  | 90 => ⟨S32, .f32⟩
  | 91 => ⟨S1x32, .f32⟩
  | 92 => ⟨S32, .f32⟩
  | 93 => ⟨S1x32, .f32⟩
  | 94 => ⟨S100000x32, .f32⟩
  | 95 => ⟨S100000x32, .f32⟩
  | 96 => ⟨S_, .f32⟩
  | 97 => ⟨S32, .f32⟩
  | 98 => ⟨S32, .f32⟩
  | 99 => ⟨S32, .f32⟩
  | 100 => ⟨S1x32, .f32⟩
  | 101 => ⟨S100000x32, .f32⟩
  | 102 => ⟨S100000x32, .f32⟩
  | 103 => ⟨S1x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S_, .f32⟩
  | 110 => ⟨S100000x32, .f32⟩
  | 111 => ⟨S100000x32, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x32, .f32⟩
  | 121 => ⟨S_, .f32⟩
  | 122 => ⟨S100000x32, .f32⟩
  | 123 => ⟨S1600000x1, .i32⟩
  | 124 => ⟨S100000x32, .f32⟩
  | 125 => ⟨S100000x32, .f32⟩
  | 126 => ⟨S1x32x32, .f32⟩
  | 127 => ⟨S32x32, .f32⟩
  | _ => ⟨S100000x128, .f32⟩

abbrev hbmTy0_1 (i : Nat) : BufTy := match i % 128 with
  | 0 => ⟨S100000x32, .f32⟩
  | 1 => ⟨S1x32, .f32⟩
  | 2 => ⟨S32, .f32⟩
  | 3 => ⟨S1x32, .f32⟩
  | 4 => ⟨S100000x32, .f32⟩
  | 5 => ⟨S100000x32, .f32⟩
  | 6 => ⟨S1x32, .f32⟩
  | 7 => ⟨S32, .f32⟩
  | 8 => ⟨S1x32, .f32⟩
  | 9 => ⟨S32, .f32⟩
  | 10 => ⟨S1x32, .f32⟩
  | 11 => ⟨S32, .f32⟩
  | 12 => ⟨S1x32, .f32⟩
  | 13 => ⟨S32, .f32⟩
  | 14 => ⟨S1x32, .f32⟩
  | 15 => ⟨S100000x32, .f32⟩
  | 16 => ⟨S100000x32, .f32⟩
  | 17 => ⟨S_, .f32⟩
  | 18 => ⟨S32, .f32⟩
  | 19 => ⟨S32, .f32⟩
  | 20 => ⟨S32, .f32⟩
  | 21 => ⟨S1x32, .f32⟩
  | 22 => ⟨S100000x32, .f32⟩
  | 23 => ⟨S100000x32, .f32⟩
  | 24 => ⟨S1x32, .f32⟩
  | 25 => ⟨S100000x32, .f32⟩
  | 26 => ⟨S100000x32, .f32⟩
  | 27 => ⟨S1x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S1x32x32, .f32⟩
  | 34 => ⟨S32x32, .f32⟩
  | 35 => ⟨S100000x32, .f32⟩
  | 36 => ⟨S1x32, .f32⟩
  | 37 => ⟨S32, .f32⟩
  | 38 => ⟨S1x32, .f32⟩
  | 39 => ⟨S100000x32, .f32⟩
  | 40 => ⟨S100000x32, .f32⟩
  | 41 => ⟨S1x32, .f32⟩
  | 42 => ⟨S32, .f32⟩
  | 43 => ⟨S1x32, .f32⟩
  | 44 => ⟨S32, .f32⟩
  | 45 => ⟨S1x32, .f32⟩
  | 46 => ⟨S32, .f32⟩
  | 47 => ⟨S1x32, .f32⟩
  | 48 => ⟨S32, .f32⟩
  | 49 => ⟨S1x32, .f32⟩
  | 50 => ⟨S100000x32, .f32⟩
  | 51 => ⟨S100000x32, .f32⟩
  | 52 => ⟨S_, .f32⟩
  | 53 => ⟨S32, .f32⟩
  | 54 => ⟨S32, .f32⟩
  | 55 => ⟨S32, .f32⟩
  | 56 => ⟨S1x32, .f32⟩
  | 57 => ⟨S100000x32, .f32⟩
  | 58 => ⟨S100000x32, .f32⟩
  | 59 => ⟨S1x32, .f32⟩
  | 60 => ⟨S100000x32, .f32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S100000x32, .f32⟩
  | 82 => ⟨S1x32x32, .f32⟩
  | 83 => ⟨S32x32, .f32⟩
  | 84 => ⟨S100000x32, .f32⟩
  | 85 => ⟨S1x32, .f32⟩
  | 86 => ⟨S32, .f32⟩
  | 87 => ⟨S1x32, .f32⟩
  | 88 => ⟨S100000x32, .f32⟩
  | 89 => ⟨S100000x32, .f32⟩
  | 90 => ⟨S1x32, .f32⟩
  | 91 => ⟨S32, .f32⟩
  | 92 => ⟨S1x32, .f32⟩
  | 93 => ⟨S32, .f32⟩
  | 94 => ⟨S1x32, .f32⟩
  | 95 => ⟨S32, .f32⟩
  | 96 => ⟨S1x32, .f32⟩
  | 97 => ⟨S32, .f32⟩
  | 98 => ⟨S1x32, .f32⟩
  | 99 => ⟨S100000x32, .f32⟩
  | 100 => ⟨S100000x32, .f32⟩
  | 101 => ⟨S_, .f32⟩
  | 102 => ⟨S32, .f32⟩
  | 103 => ⟨S32, .f32⟩
  | 104 => ⟨S32, .f32⟩
  | 105 => ⟨S1x32, .f32⟩
  | 106 => ⟨S100000x32, .f32⟩
  | 107 => ⟨S100000x32, .f32⟩
  | 108 => ⟨S1x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S1x32x32, .f32⟩
  | 118 => ⟨S32x32, .f32⟩
  | 119 => ⟨S100000x32, .f32⟩
  | 120 => ⟨S1x32, .f32⟩
  | 121 => ⟨S32, .f32⟩
  | 122 => ⟨S1x32, .f32⟩
  | 123 => ⟨S100000x32, .f32⟩
  | 124 => ⟨S100000x32, .f32⟩
  | 125 => ⟨S1x32, .f32⟩
  | 126 => ⟨S32, .f32⟩
  | 127 => ⟨S1x32, .f32⟩
  | _ => ⟨S100000x128, .f32⟩

abbrev hbmTy0_2 (i : Nat) : BufTy := match i % 128 with
  | 0 => ⟨S32, .f32⟩
  | 1 => ⟨S1x32, .f32⟩
  | 2 => ⟨S32, .f32⟩
  | 3 => ⟨S1x32, .f32⟩
  | 4 => ⟨S32, .f32⟩
  | 5 => ⟨S1x32, .f32⟩
  | 6 => ⟨S100000x32, .f32⟩
  | 7 => ⟨S100000x32, .f32⟩
  | 8 => ⟨S_, .f32⟩
  | 9 => ⟨S32, .f32⟩
  | 10 => ⟨S32, .f32⟩
  | 11 => ⟨S32, .f32⟩
  | 12 => ⟨S1x32, .f32⟩
  | 13 => ⟨S100000x32, .f32⟩
  | 14 => ⟨S100000x32, .f32⟩
  | 15 => ⟨S1x32, .f32⟩
  | 16 => ⟨S100000x32, .f32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S100000x32, .f32⟩
  | 38 => ⟨S1x32x32, .f32⟩
  | 39 => ⟨S32x32, .f32⟩
  | 40 => ⟨S100000x32, .f32⟩
  | 41 => ⟨S1x32, .f32⟩
  | 42 => ⟨S32, .f32⟩
  | 43 => ⟨S1x32, .f32⟩
  | 44 => ⟨S100000x32, .f32⟩
  | 45 => ⟨S100000x32, .f32⟩
  | 46 => ⟨S1x32, .f32⟩
  | 47 => ⟨S32, .f32⟩
  | 48 => ⟨S1x32, .f32⟩
  | 49 => ⟨S32, .f32⟩
  | 50 => ⟨S1x32, .f32⟩
  | 51 => ⟨S32, .f32⟩
  | 52 => ⟨S1x32, .f32⟩
  | 53 => ⟨S32, .f32⟩
  | 54 => ⟨S1x32, .f32⟩
  | 55 => ⟨S100000x32, .f32⟩
  | 56 => ⟨S100000x32, .f32⟩
  | 57 => ⟨S_, .f32⟩
  | 58 => ⟨S32, .f32⟩
  | 59 => ⟨S32, .f32⟩
  | 60 => ⟨S32, .f32⟩
  | 61 => ⟨S1x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S1x32x32, .f32⟩
  | 74 => ⟨S32x32, .f32⟩
  | 75 => ⟨S100000x32, .f32⟩
  | 76 => ⟨S1x32, .f32⟩
  | 77 => ⟨S32, .f32⟩
  | 78 => ⟨S1x32, .f32⟩
  | 79 => ⟨S100000x32, .f32⟩
  | 80 => ⟨S100000x32, .f32⟩
  | 81 => ⟨S1x32, .f32⟩
  | 82 => ⟨S32, .f32⟩
  | 83 => ⟨S1x32, .f32⟩
  | 84 => ⟨S32, .f32⟩
  | 85 => ⟨S1x32, .f32⟩
  | 86 => ⟨S32, .f32⟩
  | 87 => ⟨S1x32, .f32⟩
  | 88 => ⟨S32, .f32⟩
  | 89 => ⟨S1x32, .f32⟩
  | 90 => ⟨S100000x32, .f32⟩
  | 91 => ⟨S100000x32, .f32⟩
  | 92 => ⟨S_, .f32⟩
  | 93 => ⟨S32, .f32⟩
  | 94 => ⟨S32, .f32⟩
  | 95 => ⟨S32, .f32⟩
  | 96 => ⟨S1x32, .f32⟩
  | 97 => ⟨S100000x32, .f32⟩
  | 98 => ⟨S100000x32, .f32⟩
  | 99 => ⟨S1x32, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S_, .f32⟩
  | 106 => ⟨S100000x32, .f32⟩
  | 107 => ⟨S100000x32, .f32⟩
  | 108 => ⟨S_, .f32⟩
  | 109 => ⟨S1000x32, .f32⟩
  | 110 => ⟨S100000x1, .i32⟩
  | 111 => ⟨S1000x32, .f32⟩
  | 112 => ⟨S1000x32, .f32⟩
  | 113 => ⟨S1x32, .f32⟩
  | 114 => ⟨S1000x32, .f32⟩
  | 115 => ⟨S1000x32, .f32⟩
  | 116 => ⟨S_, .f32⟩
  | 117 => ⟨S1000x32, .f32⟩
  | 118 => ⟨S1000x32, .f32⟩
  | 119 => ⟨S1x32, .f32⟩
  | 120 => ⟨S1000x32, .f32⟩
  | 121 => ⟨S1000x32, .f32⟩
  | 122 => ⟨S_, .f32⟩
  | 123 => ⟨S32, .f32⟩
  | 124 => ⟨S32, .f32⟩
  | 125 => ⟨S32, .f32⟩
  | 126 => ⟨S1x32, .f32⟩
  | 127 => ⟨S1000x32, .f32⟩
  | _ => ⟨S100000x128, .f32⟩

abbrev hbmTy0_3 (i : Nat) : BufTy := match i % 128 with
  | 0 => ⟨S1000x32, .f32⟩
  | 1 => ⟨S1x32, .f32⟩
  | 2 => ⟨S1000x32, .f32⟩
  | 3 => ⟨S1000x32, .f32⟩
  | 4 => ⟨S1x32, .f32⟩
  | 5 => ⟨S1000x32, .f32⟩
  | 6 => ⟨S1000x32, .f32⟩
  | 7 => ⟨S_, .f32⟩
  | 8 => ⟨S1000x32, .f32⟩
  | 9 => ⟨S1000x32, .f32⟩
  | 10 => ⟨S1000x10, .f32⟩
  | 11 => ⟨S1x10, .f32⟩
  | 12 => ⟨S1000x10, .f32⟩
  | 13 => ⟨S1000x10, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call0_cst : Ref sig .tc := ⟨.hbm, 57, rfl⟩
abbrev main_call0_v0 : Ref sig .tc := ⟨.hbm, 58, rfl⟩
abbrev main_v23 : Ref sig .tc := ⟨.hbm, 59, rfl⟩
abbrev main_c : Ref sig .tc := ⟨.hbm, 60, rfl⟩
abbrev main_v24 : Ref sig .tc := ⟨.hbm, 61, rfl⟩
abbrev main_v25 : Ref sig .tc := ⟨.hbm, 62, rfl⟩
abbrev main_c_0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_1 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_call1_cst : Ref sig .tc := ⟨.hbm, 78, rfl⟩
abbrev main_call1_v0 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_2 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call2_cst : Ref sig .tc := ⟨.hbm, 109, rfl⟩
abbrev main_call2_v0 : Ref sig .tc := ⟨.hbm, 110, rfl⟩
abbrev main_v67 : Ref sig .tc := ⟨.hbm, 111, rfl⟩
abbrev main_c_3 : Ref sig .tc := ⟨.hbm, 112, rfl⟩
abbrev main_v68 : Ref sig .tc := ⟨.hbm, 113, rfl⟩
abbrev main_v69 : Ref sig .tc := ⟨.hbm, 114, rfl⟩
abbrev main_c_4 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_5 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_6 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_call3_cst : Ref sig .tc := ⟨.hbm, 158, rfl⟩
abbrev main_call3_v0 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_7 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call4_cst : Ref sig .tc := ⟨.hbm, 193, rfl⟩
abbrev main_call4_v0 : Ref sig .tc := ⟨.hbm, 194, rfl⟩
abbrev main_v142 : Ref sig .tc := ⟨.hbm, 195, rfl⟩
abbrev main_c_8 : Ref sig .tc := ⟨.hbm, 196, rfl⟩
abbrev main_v143 : Ref sig .tc := ⟨.hbm, 197, rfl⟩
abbrev main_v144 : Ref sig .tc := ⟨.hbm, 198, rfl⟩
abbrev main_c_9 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_10 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_11 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_call5_cst : Ref sig .tc := ⟨.hbm, 242, rfl⟩
abbrev main_call5_v0 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_cst_12 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_call6_cst : Ref sig .tc := ⟨.hbm, 277, rfl⟩
abbrev main_call6_v0 : Ref sig .tc := ⟨.hbm, 278, rfl⟩
abbrev main_v217 : Ref sig .tc := ⟨.hbm, 279, rfl⟩
abbrev main_c_13 : Ref sig .tc := ⟨.hbm, 280, rfl⟩
abbrev main_v218 : Ref sig .tc := ⟨.hbm, 281, rfl⟩
abbrev main_v219 : Ref sig .tc := ⟨.hbm, 282, rfl⟩
abbrev main_c_14 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_cst_15 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_cst_16 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_call7_cst : Ref sig .tc := ⟨.hbm, 326, rfl⟩
abbrev main_call7_v0 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_cst_17 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_call8_cst : Ref sig .tc := ⟨.hbm, 361, rfl⟩
abbrev main_call8_v0 : Ref sig .tc := ⟨.hbm, 362, rfl⟩
abbrev main_v292 : Ref sig .tc := ⟨.hbm, 363, rfl⟩
abbrev main_cst_18 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_call9_cst : Ref sig .tc := ⟨.hbm, 372, rfl⟩
abbrev main_call9_v0 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_cst_19 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_call10_cst : Ref sig .tc := ⟨.hbm, 391, rfl⟩
abbrev main_call10_v0 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S_S100000x32 : S_.BroadcastsInDim S100000x32 (![] : Fin 0 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x32_S1x32_0_0 : S4x32.Slices ![0, 0] S1x32
  shapeCasts_S1x32_S32 : S1x32.ShapeCasts S32
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  slices_S4x32_S1x32_1_0 : S4x32.Slices ![1, 0] S1x32
  slices_S3x32x32_S1x32x32_1_0_0 : S3x32x32.Slices ![1, 0, 0] S1x32x32
  slices_S3x32_S1x32_1_0 : S3x32.Slices ![1, 0] S1x32
  slices_S4x32_S1x32_2_0 : S4x32.Slices ![2, 0] S1x32
  slices_S3x32x32_S1x32x32_2_0_0 : S3x32x32.Slices ![2, 0, 0] S1x32x32
  slices_S3x32_S1x32_2_0 : S3x32.Slices ![2, 0] S1x32
  slices_S4x32_S1x32_3_0 : S4x32.Slices ![3, 0] S1x32
  bcast_S_S1000x32 : S_.BroadcastsInDim S1000x32 (![] : Fin 0 → Fin S1000x32.rank)
  bcast_S100000_S100000x1_0 : S100000.BroadcastsInDim S100000x1 (![0] : Fin 1 → Fin S100000x1.rank)
  bcast_S1x32_S1000x32_0_1 : S1x32.BroadcastsInDim S1000x32 (![0, 1] : Fin 2 → Fin S1000x32.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S1000x32_S100000x1_S100000x32_1_0_0_1_wf : ScatterDims.WF S1000x32 S100000x1 S100000x32 [1] [0] [0] 1
  dot_S1000x32_S32x32_S1000x32_1_0_0_1_n_n_wf : DotDims.WF S1000x32 S32x32 S1000x32 [1] [0] [0] [1] [] []
  dot_S1000x32_S32x10_S1000x10_1_0_0_1_n_n_wf : DotDims.WF S1000x32 S32x10 S1000x10 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S1000x32_S100000x1_S100000x32_1_0_0_1 : ScatterDims S1000x32 S100000x1 S100000x32 where
  updateWindowDims := [1]
  insertedWindowDims := [0]
  scatterDimsToOperandDims := [0]
  indexVectorDim := 1
  wf := scatter_S1000x32_S100000x1_S100000x32_1_0_0_1_wf
def dot_S1000x32_S32x32_S1000x32_1_0_0_1_n_n : DotDims S1000x32 S32x32 S1000x32 where
  lhsContracting := [1]
  rhsContracting := [0]
  lhsNonContracting := [0]
  rhsNonContracting := [1]
  lhsBatch := []
  rhsBatch := []
  wf := dot_S1000x32_S32x32_S1000x32_1_0_0_1_n_n_wf
def dot_S1000x32_S32x10_S1000x10_1_0_0_1_n_n : DotDims S1000x32 S32x10 S1000x10 where
  lhsContracting := [1]
  rhsContracting := [0]
  lhsNonContracting := [0]
  rhsNonContracting := [1]
  lhsBatch := []
  rhsBatch := []
  wf := dot_S1000x32_S32x10_S1000x10_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Gin

open Idealize.ShloMosaic Idealize.ShloMosaic.ValueIdx

/-- The shift added to a variance before its square root is taken. -/
abbrev eps : EReal := Ideal.ofBits .f32 0x3727C5AC#32

abbrev zeroW : EReal := Ideal.ofBits .f32 0x00000000#32

/-- At a positive extended real, scaling by the reciprocal square root is dividing by the square root. -/
theorem mul_rsqrt_eq_div_sqrt (a y : EReal) (hy : 0 < y) : a * Ideal.rsqrt y = Ideal.div a (Ideal.sqrt y) := by
  induction y using EReal.rec with
  | bot => exact absurd hy (by simp)
  | top =>
    rw [Ideal.rsqrt_top, Ideal.sqrt_top, Ideal.div, if_neg (by simp), EReal.inv_top]
  | coe r =>
    have hr : 0 < r := by exact_mod_cast hy
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- Batch normalisation by the reciprocal square root: mean `m`, variance `v`, scale `g`, shift `b`. -/
def normRsqrt (m v g b a : EReal) : EReal := (a - m) * Ideal.rsqrt (v + eps) * g + b

/-- The same normalisation, dividing by the square root. -/
def normDiv (m v g b a : EReal) : EReal := Ideal.div (a - m) (Ideal.sqrt (v + eps)) * g + b

/-- The two agree where the shifted variance is positive. -/
theorem normRsqrt_eq_normDiv (m v g b a : EReal) (hv : 0 < v + eps) : normRsqrt m v g b a = normDiv m v g b a := by
  unfold normRsqrt normDiv
  rw [mul_rsqrt_eq_div_sqrt _ _ hv]

def relu (x : EReal) : EReal := max x zeroW

/-- A row against a weight matrix, plus a bias. -/
def dense {k n : Nat} (z : Fin k → EReal) (W : Fin k → Fin n → EReal) (b : Fin n → EReal) : Fin n → EReal :=
  fun q => (∑ j : Fin k, z j * W j q) + b q

/-- The input stage on one node's row. -/
def preRow (nrm : Fin 32 → EReal → EReal) (x : Fin 128 → EReal) (W : Fin 128 → Fin 32 → EReal) (b : Fin 32 → EReal) :
    Fin 32 → EReal :=
  fun q => relu (nrm q (dense x W b q))

/-- The first convolution's node network on one summed row. -/
def conv0Row (nrm : Fin 32 → EReal → EReal) (z : Fin 32 → EReal) (W1 : Fin 32 → Fin 32 → EReal) (b1 : Fin 32 → EReal)
    (W2 : Fin 32 → Fin 32 → EReal) (b2 : Fin 32 → EReal) : Fin 32 → EReal :=
  fun q => relu (nrm q (dense (fun k => relu (dense z W1 b1 k)) W2 b2 q))

/-- A later convolution's node network: its inner dense layer is normalised too. -/
def convkRow (nrm1 nrm2 : Fin 32 → EReal → EReal) (z : Fin 32 → EReal) (W1 : Fin 32 → Fin 32 → EReal)
    (b1 : Fin 32 → EReal) (W2 : Fin 32 → Fin 32 → EReal) (b2 : Fin 32 → EReal) : Fin 32 → EReal :=
  fun q => relu (nrm2 q (dense (fun k => relu (nrm1 k (dense z W1 b1 k))) W2 b2 q))

/-- The head on one graph's row. -/
def postRow (nrm : Fin 32 → EReal → EReal) (g : Fin 32 → EReal) (PW : Fin 32 → Fin 32 → EReal) (pb : Fin 32 → EReal)
    (RW : Fin 32 → Fin 10 → EReal) (rb : Fin 10 → EReal) : Fin 10 → EReal :=
  dense (fun k => relu (nrm k (relu (dense g PW pb k)))) RW rb

abbrev Arr2 (n k : Nat) : Type := (⟨2, ![n, k]⟩ : Shape).Idx → EReal

abbrev rowOf {n k : Nat} (X : Arr2 n k) (i : Fin n) : Fin k → EReal := fun j => X (ix2 i j)

abbrev mat {k n : Nat} (W : Arr2 k n) : Fin k → Fin n → EReal := fun j q => W (ix2 j q)

/-- The stages on whole arrays, row by row; a convolution takes a node's row plus its neighbours' sum. -/
def preG {n : Nat} (nrm : Fin 32 → EReal → EReal) (X : Arr2 n 128) (W : Arr2 128 32) (b : Fin 32 → EReal) : Arr2 n 32 :=
  fun i => preRow nrm (rowOf X (i 0)) (mat W) b (i 1)

def conv0G {n : Nat} (nrm : Fin 32 → EReal → EReal) (H A : Arr2 n 32) (W1 : Arr2 32 32) (b1 : Fin 32 → EReal)
    (W2 : Arr2 32 32) (b2 : Fin 32 → EReal) : Arr2 n 32 :=
  fun i => conv0Row nrm (fun j => H (ix2 (i 0) j) + A (ix2 (i 0) j)) (mat W1) b1 (mat W2) b2 (i 1)

def convkG {n : Nat} (nrm1 nrm2 : Fin 32 → EReal → EReal) (H A : Arr2 n 32) (W1 : Arr2 32 32) (b1 : Fin 32 → EReal)
    (W2 : Arr2 32 32) (b2 : Fin 32 → EReal) : Arr2 n 32 :=
  fun i => convkRow nrm1 nrm2 (fun j => H (ix2 (i 0) j) + A (ix2 (i 0) j)) (mat W1) b1 (mat W2) b2 (i 1)

def postG {n : Nat} (nrm : Fin 32 → EReal → EReal) (P : Arr2 n 32) (PW : Arr2 32 32) (pb : Fin 32 → EReal)
    (RW : Arr2 32 10) (rb : Fin 10 → EReal) : Arr2 n 10 :=
  fun i => postRow nrm (rowOf P (i 0)) (mat PW) pb (mat RW) rb (i 1)

end Cert.Gin

end
-- ==== Proof.Net.lean ====
import proofs.«170228_j49160195670360_2_alg».proof.Proof.Spec

noncomputable section

namespace Cert.Gin

open Idealize.ShloMosaic Idealize.ShloMosaic.ValueIdx

abbrev Arr1 (n : Nat) : Type := (⟨1, ![n]⟩ : Shape).Idx → EReal

abbrev Arr3 (l n k : Nat) : Type := (⟨3, ![l, n, k]⟩ : Shape).Idx → EReal

abbrev vec {n : Nat} (a : Arr1 n) : Fin n → EReal := fun q => a (ix1 q)

abbrev slab {l n k : Nat} (A : Arr3 l n k) (s : Fin l) : Arr2 n k := fun i => A (ix3 s (i 0) (i 1))

abbrev nrmOf (norm : EReal → EReal → EReal → EReal → EReal → EReal) (m v g b : Fin 32 → EReal) : Fin 32 → EReal → EReal :=
  fun q a => norm (m q) (v q) (g q) (b q) a

/-- The network: the input stage, four convolutions each fed the previous features and their neighbour sums, the sum per graph, the head. The arrays come in the programs' argument order. -/
def net (norm : EReal → EReal → EReal → EReal → EReal → EReal)
    (agg : Arr2 100000 32 → Arr2 100000 32) (pool : Arr2 100000 32 → Arr2 1000 32)
    (x : Arr2 100000 128) (preW : Arr2 128 32) (preB preG_ preBe preM preV : Arr1 32)
    (aW1 : Arr2 32 32) (aB1 : Arr1 32) (aW2 : Arr2 32 32) (aB2 : Arr1 32)
    (kW1 : Arr3 3 32 32) (kB1 kG kBe kM kV : Arr2 3 32) (kW2 : Arr3 3 32 32) (kB2 : Arr2 3 32)
    (oG oBe oM oV : Arr2 4 32)
    (pW : Arr2 32 32) (pB pG pBe pM pV : Arr1 32) (rW : Arr2 32 10) (rB : Arr1 10) : Arr2 1000 10 :=
  let h0 : Arr2 100000 32 := preG (nrmOf norm (vec preM) (vec preV) (vec preG_) (vec preBe)) x preW (vec preB)
  let h1 : Arr2 100000 32 := conv0G (nrmOf norm (rowOf oM 0) (rowOf oV 0) (rowOf oG 0) (rowOf oBe 0)) h0 (agg h0)
    aW1 (vec aB1) aW2 (vec aB2)
  let h2 : Arr2 100000 32 := convkG (nrmOf norm (rowOf kM 0) (rowOf kV 0) (rowOf kG 0) (rowOf kBe 0))
    (nrmOf norm (rowOf oM 1) (rowOf oV 1) (rowOf oG 1) (rowOf oBe 1)) h1 (agg h1)
    (slab kW1 0) (rowOf kB1 0) (slab kW2 0) (rowOf kB2 0)
  let h3 : Arr2 100000 32 := convkG (nrmOf norm (rowOf kM 1) (rowOf kV 1) (rowOf kG 1) (rowOf kBe 1))
    (nrmOf norm (rowOf oM 2) (rowOf oV 2) (rowOf oG 2) (rowOf oBe 2)) h2 (agg h2)
    (slab kW1 1) (rowOf kB1 1) (slab kW2 1) (rowOf kB2 1)
  let h4 : Arr2 100000 32 := convkG (nrmOf norm (rowOf kM 2) (rowOf kV 2) (rowOf kG 2) (rowOf kBe 2))
    (nrmOf norm (rowOf oM 3) (rowOf oV 3) (rowOf oG 3) (rowOf oBe 3)) h3 (agg h3)
    (slab kW1 2) (rowOf kB1 2) (slab kW2 2) (rowOf kB2 2)
  postG (nrmOf norm (vec pM) (vec pV) (vec pG) (vec pBe)) (pool h4) pW (vec pB) rW (vec rB)

/-- With every shifted variance positive the two normalisations give one network. -/
theorem net_rsqrt_eq_div
    (agg : Arr2 100000 32 → Arr2 100000 32) (pool : Arr2 100000 32 → Arr2 1000 32)
    (x : Arr2 100000 128) (preW : Arr2 128 32) (preB preG_ preBe preM preV : Arr1 32)
    (aW1 : Arr2 32 32) (aB1 : Arr1 32) (aW2 : Arr2 32 32) (aB2 : Arr1 32)
    (kW1 : Arr3 3 32 32) (kB1 kG kBe kM kV : Arr2 3 32) (kW2 : Arr3 3 32 32) (kB2 : Arr2 3 32)
    (oG oBe oM oV : Arr2 4 32)
    (pW : Arr2 32 32) (pB pG pBe pM pV : Arr1 32) (rW : Arr2 32 10) (rB : Arr1 10)
    (hpre : ∀ i, 0 < preV i + eps) (hk : ∀ i, 0 < kV i + eps) (ho : ∀ i, 0 < oV i + eps) (hp : ∀ i, 0 < pV i + eps) :
    net normRsqrt agg pool x preW preB preG_ preBe preM preV aW1 aB1 aW2 aB2 kW1 kB1 kG kBe kM kV kW2 kB2 oG oBe oM oV
        pW pB pG pBe pM pV rW rB
      = net normDiv agg pool x preW preB preG_ preBe preM preV aW1 aB1 aW2 aB2 kW1 kB1 kG kBe kM kV kW2 kB2 oG oBe oM oV
        pW pB pG pBe pM pV rW rB := by
  have e0 : nrmOf normRsqrt (vec preM) (vec preV) (vec preG_) (vec preBe) = nrmOf normDiv (vec preM) (vec preV) (vec preG_) (vec preBe) :=
    funext fun q => funext fun a => normRsqrt_eq_normDiv _ _ _ _ _ (hpre _)
  have ek : ∀ s : Fin 3, nrmOf normRsqrt (rowOf kM s) (rowOf kV s) (rowOf kG s) (rowOf kBe s) = nrmOf normDiv (rowOf kM s) (rowOf kV s) (rowOf kG s) (rowOf kBe s) :=
    fun s => funext fun q => funext fun a => normRsqrt_eq_normDiv _ _ _ _ _ (hk _)
  have eo : ∀ s : Fin 4, nrmOf normRsqrt (rowOf oM s) (rowOf oV s) (rowOf oG s) (rowOf oBe s) = nrmOf normDiv (rowOf oM s) (rowOf oV s) (rowOf oG s) (rowOf oBe s) :=
    fun s => funext fun q => funext fun a => normRsqrt_eq_normDiv _ _ _ _ _ (ho _)
  have ep : nrmOf normRsqrt (vec pM) (vec pV) (vec pG) (vec pBe) = nrmOf normDiv (vec pM) (vec pV) (vec pG) (vec pBe) :=
    funext fun q => funext fun a => normRsqrt_eq_normDiv _ _ _ _ _ (hp _)
  unfold net
  rw [e0, ek 0, ek 1, ek 2, eo 0, eo 1, eo 2, eo 3, ep]

end Cert.Gin

end
-- ==== Proof.NetStages.lean ====
import proofs.«170228_j49160195670360_2_alg».proof.Proof.Net

noncomputable section

namespace Cert.Gin

open Idealize.ShloMosaic Idealize.ShloMosaic.ValueIdx

/-- Six arrays that are, one after the other, the stages' outputs end at the network's value. -/
theorem net_of_stages (norm : EReal → EReal → EReal → EReal → EReal → EReal)
    (agg : Arr2 100000 32 → Arr2 100000 32) (pool : Arr2 100000 32 → Arr2 1000 32)
    (x : Arr2 100000 128) (preW : Arr2 128 32) (preB preG_ preBe preM preV : Arr1 32)
    (aW1 : Arr2 32 32) (aB1 : Arr1 32) (aW2 : Arr2 32 32) (aB2 : Arr1 32)
    (kW1 : Arr3 3 32 32) (kB1 kG kBe kM kV : Arr2 3 32) (kW2 : Arr3 3 32 32) (kB2 : Arr2 3 32)
    (oG oBe oM oV : Arr2 4 32)
    (pW : Arr2 32 32) (pB pG pBe pM pV : Arr1 32) (rW : Arr2 32 10) (rB : Arr1 10)
    (h0 h1 h2 h3 h4 : Arr2 100000 32) (out : Arr2 1000 10)
    (e0 : h0 = preG (nrmOf norm (vec preM) (vec preV) (vec preG_) (vec preBe)) x preW (vec preB))
    (e1 : h1 = conv0G (nrmOf norm (rowOf oM 0) (rowOf oV 0) (rowOf oG 0) (rowOf oBe 0)) h0 (agg h0)
        aW1 (vec aB1) aW2 (vec aB2))
    (e2 : h2 = convkG (nrmOf norm (rowOf kM 0) (rowOf kV 0) (rowOf kG 0) (rowOf kBe 0))
        (nrmOf norm (rowOf oM 1) (rowOf oV 1) (rowOf oG 1) (rowOf oBe 1)) h1 (agg h1)
        (slab kW1 0) (rowOf kB1 0) (slab kW2 0) (rowOf kB2 0))
    (e3 : h3 = convkG (nrmOf norm (rowOf kM 1) (rowOf kV 1) (rowOf kG 1) (rowOf kBe 1))
        (nrmOf norm (rowOf oM 2) (rowOf oV 2) (rowOf oG 2) (rowOf oBe 2)) h2 (agg h2)
        (slab kW1 1) (rowOf kB1 1) (slab kW2 1) (rowOf kB2 1))
    (e4 : h4 = convkG (nrmOf norm (rowOf kM 2) (rowOf kV 2) (rowOf kG 2) (rowOf kBe 2))
        (nrmOf norm (rowOf oM 3) (rowOf oV 3) (rowOf oG 3) (rowOf oBe 3)) h3 (agg h3)
        (slab kW1 2) (rowOf kB1 2) (slab kW2 2) (rowOf kB2 2))
    (e5 : out = postG (nrmOf norm (vec pM) (vec pV) (vec pG) (vec pBe)) (pool h4) pW (vec pB) rW (vec rB)) :
    out = net norm agg pool x preW preB preG_ preBe preM preV aW1 aB1 aW2 aB2 kW1 kB1 kG kBe kM kV kW2 kB2 oG oBe oM oV pW pB pG pBe pM pV rW rB := by
  subst e0 e1 e2 e3 e4 e5
  rfl

end Cert.Gin

end
-- ==== Proof.LibPlainDot.lean ====
import Idealize.ShloMosaic.PureOps.Ideal.Laws
import Idealize.ShloMosaic.Lib.ValueIdx

noncomputable section

open scoped BigOperators

namespace Cert.LibPlainDot

open Idealize.ShloMosaic Idealize.ShloMosaic.ValueIdx

theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- A plain matrix product into a zero accumulator, at one entry, is the sum over the contracted coordinate. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

end Cert.LibPlainDot

end
-- ==== Proof.KConvK.lean ====
import proofs.«170228_j49160195670360_2_alg».proof.Proof.Gen.KernelIdeal.Frame
import proofs.«170228_j49160195670360_2_alg».proof.Proof.Net
import proofs.«170228_j49160195670360_2_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Cert.Gin Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- A block at index zero on every axis, of the array's own sizes, is the whole array. -/
theorem blk_whole (b : Ref sig .tc) {z : Fin b.ty.shape.rank → Nat} (hz : z = fun _ => 0) (inb) (f : b.ty.Contents (Elt Ideal)) :
    ((Memref.whole b).access (Rect.unit (fun a => z a * b.ty.shape.size a) b.ty.shape.size inb)).read (Elt Ideal) f = f :=
  Memref.read_access_unit_zero _ b (by subst hz; exact funext fun a => Nat.zero_mul _) inb f

/-- An embedding that shifts rows by `r 0` and keeps columns sends entry (p, k) to (i, k) when `i = r 0 + p`. -/
theorem emb_ix2 {m n M : Nat} {e : (⟨2, ![m, n]⟩ : Shape).Idx → (⟨2, ![M, n]⟩ : Shape).Idx} {r : Fin 2 → Nat}
    (he : ∀ j a, ((e j a : Fin _) : Nat) = r a + j a) (hr : r 1 = 0) (p : Fin m) (k : Fin n) (i : Fin M) (hi : (i : Nat) = r 0 + p) :
    e (ix2 p k) = ix2 i k :=
  Shape.idx_ext₂ ((he _ 0).trans hi.symm) ((he _ 1).trans (by rw [hr]; exact Nat.zero_add _))

/-- Blocks of 10000 rows starting at every multiple of 10000 below 100000 cover the 100000 rows. -/
theorem cover_rows {N : Nat} (e : Fin N → S10000x32.Idx → S100000x32.Idx) (r : Fin N → Fin 2 → Nat)
    (he : ∀ t j a, ((e t j a : Fin _) : Nat) = r t a + j a) (hr0 : ∀ q : Fin 10, ∃ t, r t 0 = 10000 * q) (hr1 : ∀ t, r t 1 = 0)
    (i : S100000x32.Idx) : ∃ t j, e t j = i := by
  have h0 : (i 0).val < 100000 := (i 0).isLt
  obtain ⟨t, ht⟩ := hr0 ⟨(i 0).val / 10000, by omega⟩
  refine ⟨t, ix2 ⟨(i 0).val % 10000, Nat.mod_lt _ (by omega)⟩ (i 1), Shape.idx_ext₂ ?_ ?_⟩
  · rw [he, ht]; exact Nat.div_add_mod _ _
  · rw [he, hr1]; exact Nat.zero_add _

/-- A plain matrix product added to zero, at one entry, is the sum over the contracted coordinate. -/
theorem mm_plain {M K N : Nat} {d : DotDims ⟨2, ![M, K]⟩ ⟨2, ![K, N]⟩ ⟨2, ![M, N]⟩} (hd : d = DotDims.plain M K N)
    (A : FVec Ideal ⟨2, ![M, K]⟩ .bf16) (B : FVec Ideal ⟨2, ![K, N]⟩ .bf16) (p : Fin M) (q : Fin N) :
    FloatOps.matmul d none A B (constant ⟨2, ![M, N]⟩ .f32 0x00000000#32) (ix2 p q) = ∑ j : Fin K, A (ix2 p j) * B (ix2 j q) := by
  subst hd; exact Cert.LibPlainDot.matmul_plain_apply M K N none A B p q

/-- The input stage's block: a row against the weights plus the bias, normalised and rectified. -/
theorem pay0_apply (x0 : Vec Ideal S10000x128 .f32) (x1 : Vec Ideal S128x32 .f32) (x2 x3 x4 x5 x6 : Vec Ideal S1x32 .f32) (j : S10000x32.Idx) :
    k0_pay1 x0 x1 x2 x3 x4 x5 x6 j
      = preRow (nrmOf normRsqrt (rowOf (x5 : Arr2 1 32) 0) (rowOf (x6 : Arr2 1 32) 0) (rowOf (x3 : Arr2 1 32) 0) (rowOf (x4 : Arr2 1 32) 0))
          (rowOf (x0 : Arr2 10000 128) (j 0)) (mat (x1 : Arr2 128 32)) (rowOf (x2 : Arr2 1 32) 0) (j 1) := by
  obtain ⟨p, q, rfl⟩ : ∃ (p : Fin 10000) (q : Fin 32), j = ix2 p q := ⟨j 0, j 1, eq_ix2 j⟩
  unfold k0_pay1
  simp only [shapeCast_self, truncf_apply, maximumf_apply, addf_apply, mulf_apply, subf_apply, broadcast_apply,
    broadcastTo_1b_ab_apply, mm_plain (d := dot_S10000x128_S128x32_S10000x32_1_0_0_1_n_n) rfl]
  rfl

/-- A feature block whose rows move with the output block's, with whole parameter arrays, gives the input stage at the output's rows. -/
theorem pre_blk {x0 : Vec Ideal S10000x128 .f32} {X : Arr2 100000 128} {e0 : S10000x128.Idx → (⟨2, ![100000, 128]⟩ : Shape).Idx}
    {e : S10000x32.Idx → S100000x32.Idx} {r0 r : Fin 2 → Nat}
    (h0 : ∀ y, x0 y = X (e0 y)) (he0 : ∀ y a, ((e0 y a : Fin _) : Nat) = r0 a + y a) (he : ∀ j a, ((e j a : Fin _) : Nat) = r a + j a)
    (hr0 : r0 1 = 0) (hr : r 1 = 0) (h00 : r0 0 = r 0)
    {x1 : Vec Ideal S128x32 .f32} {x2 x3 x4 x5 x6 : Vec Ideal S1x32 .f32} {W : Arr2 128 32} {b g s m v : Arr2 1 32}
    (p1 : x1 = W) (p2 : x2 = b) (p3 : x3 = g) (p4 : x4 = s) (p5 : x5 = m) (p6 : x6 = v) :
    out0_7 x0 x1 x2 x3 x4 x5 x6
      = fun j => preG (nrmOf normRsqrt (rowOf m 0) (rowOf v 0) (rowOf g 0) (rowOf s 0)) X W (rowOf b 0) (e j) := by
  subst p1 p2 p3 p4 p5 p6
  unfold out0_7
  rw [View.canon_unit_zero zero2]
  simp only [View.ld_unit_zero (S := S10000x128) zero2, View.ld_unit_zero (S := S128x32) zero2, View.ld_unit_zero (S := S1x32) zero2]
  funext j
  have hcol : e j 1 = j 1 := Fin.ext ((he j 1).trans (by rw [hr]; exact Nat.zero_add _))
  have hrow : rowOf (x0 : Arr2 10000 128) (j 0) = rowOf X (e j 0) := funext fun k =>
    (h0 _).trans (congrArg X (emb_ix2 he0 hr0 (j 0) k (e j 0) ((he j 0).trans (by rw [h00]))))
  rw [pay0_apply, hrow, ← hcol]
  rfl

theorem onto0 : ∀ q : Fin 10, ∃ t : Fin cfg0.N, win0_7.index t 0 * win0_7.size 0 = 10000 * q :=
  (by decide +kernel : ∀ q : Fin 10, ∃ t : Fin grid0.N, win0_7.index t 0 * 10000 = 10000 * q.val)

theorem final0 (c : Dev nD) :
    (dat0 (F := Ideal) V c).arrAt 7 cfg0.N
      = preG (nrmOf normRsqrt (rowOf (V c main_v7 : Arr2 1 32) 0) (rowOf (V c main_v8 : Arr2 1 32) 0) (rowOf (V c main_v5 : Arr2 1 32) 0) (rowOf (V c main_v6 : Arr2 1 32) 0))
          (V c main_arg0 : Arr2 100000 128) (V c main_arg3 : Arr2 128 32) (rowOf (V c main_v4 : Arr2 1 32) 0) :=
  (dat0 (F := Ideal) V c).arrAt_eq_of_cover 7 _
    (fun t _ => by
      show (cfg0.win 7).cut (grid0.coords t) ((dat0 (F := Ideal) V c).after 7 t) = _
      rw [after0_7]
      exact pre_blk (fun _ => rfl) (Window.rect_emb_val win0_0 t) (Window.rect_emb_val win0_7 t) (Nat.zero_mul _) (Nat.zero_mul _) rfl
        (blk_whole _ zero2 _ _) (blk_whole _ zero2 _ _) (blk_whole _ zero2 _ _) (blk_whole _ zero2 _ _)
        (blk_whole _ zero2 _ _) (blk_whole _ zero2 _ _))
    fun i => by
      obtain ⟨t, j, rfl⟩ := cover_rows (fun t => ((cfg0.win 7).blk t).view.emb) _ (fun t => Window.rect_emb_val win0_7 t)
        onto0 (fun _ => Nat.zero_mul _) i
      exact ⟨t, flush0_7 t, View.emb_mem_set _ j⟩

/-- The first convolution's block: the summed row through two dense stages, the second normalised and rectified. -/
theorem pay1_apply (x0 x1 : Vec Ideal S10000x32 .f32) (x2 : Vec Ideal S32x32 .f32) (x3 : Vec Ideal S1x32 .f32)
    (x4 : Vec Ideal S32x32 .f32) (x5 x6 x7 x8 x9 : Vec Ideal S1x32 .f32) (j : S10000x32.Idx) :
    k1_pay1 (k1_pay2 x6) (k1_pay3 x7) (k1_pay4 x0 x1 x2 x3 x4 x5 x8) (k1_pay5 x9) j
      = conv0Row (nrmOf normRsqrt (rowOf (x8 : Arr2 1 32) 0) (rowOf (x9 : Arr2 1 32) 0) (rowOf (x6 : Arr2 1 32) 0) (rowOf (x7 : Arr2 1 32) 0))
          (fun k => x0 (ix2 (j 0) k) + x1 (ix2 (j 0) k)) (mat (x2 : Arr2 32 32)) (rowOf (x3 : Arr2 1 32) 0)
          (mat (x4 : Arr2 32 32)) (rowOf (x5 : Arr2 1 32) 0) (j 1) := by
  obtain ⟨p, q, rfl⟩ : ∃ (p : Fin 10000) (q : Fin 32), j = ix2 p q := ⟨j 0, j 1, eq_ix2 j⟩
  unfold k1_pay1 k1_pay2 k1_pay3 k1_pay4 k1_pay5
  simp only [shapeCast_self, truncf_apply, maximumf_apply, addf_apply, mulf_apply, subf_apply, broadcast_apply,
    broadcastTo_1b_ab_apply, mm_plain (d := dot_S10000x32_S32x32_S10000x32_1_0_0_1_n_n) rfl]
  rfl

/-- Blocks whose entry `j` sits at `e j = r + j` in the arrays `H` and `A`, with `r` on the row axis only, give the first convolution of `H` and `A` at `e j`. -/
theorem conv0_blk {x0 x1 : Vec Ideal S10000x32 .f32} {H A : Arr2 100000 32} {e : S10000x32.Idx → S100000x32.Idx} {r : Fin 2 → Nat}
    (h0 : ∀ j, x0 j = H (e j)) (h1 : ∀ j, x1 j = A (e j)) (he : ∀ j a, ((e j a : Fin _) : Nat) = r a + j a) (hr : r 1 = 0)
    {x2 x4 : Vec Ideal S32x32 .f32} {x3 x5 x6 x7 x8 x9 : Vec Ideal S1x32 .f32} {W1 W2 : Arr2 32 32} {b1 b2 g s m v : Arr2 1 32}
    (p2 : x2 = W1) (p3 : x3 = b1) (p4 : x4 = W2) (p5 : x5 = b2) (p6 : x6 = g) (p7 : x7 = s) (p8 : x8 = m) (p9 : x9 = v) :
    out1_10 x0 x1 x2 x3 x4 x5 x6 x7 x8 x9
      = fun j => conv0G (nrmOf normRsqrt (rowOf m 0) (rowOf v 0) (rowOf g 0) (rowOf s 0)) H A W1 (rowOf b1 0) W2 (rowOf b2 0) (e j) := by
  subst p2 p3 p4 p5 p6 p7 p8 p9
  unfold out1_10
  rw [View.canon_unit_zero zero2]
  simp only [View.ld_unit_zero (S := S10000x32) zero2, View.ld_unit_zero (S := S32x32) zero2, View.ld_unit_zero (S := S1x32) zero2]
  funext j
  have hcol : e j 1 = j 1 := Fin.ext ((he j 1).trans (by rw [hr]; exact Nat.zero_add _))
  rw [pay1_apply]
  simp only [h0, h1, fun k => emb_ix2 he hr (j 0) k (e j 0) (he j 0)]
  rw [← hcol]
  rfl

theorem onto1 : ∀ q : Fin 10, ∃ t : Fin cfg1.N, win1_10.index t 0 * win1_10.size 0 = 10000 * q :=
  (by decide +kernel : ∀ q : Fin 10, ∃ t : Fin grid1.N, win1_10.index t 0 * 10000 = 10000 * q.val)

theorem final1 (c : Dev nD) :
    (dat1 (F := Ideal) V c).arrAt 10 cfg1.N
      = conv0G (nrmOf normRsqrt (rowOf (V c main_v32 : Arr2 1 32) 0) (rowOf (V c main_v33 : Arr2 1 32) 0) (rowOf (V c main_v30 : Arr2 1 32) 0) (rowOf (V c main_v31 : Arr2 1 32) 0))
          (V c main_v9 : Arr2 100000 32) (V c main_v19 : Arr2 100000 32)
          (V c main_arg9 : Arr2 32 32) (rowOf (V c main_v28 : Arr2 1 32) 0) (V c main_arg11 : Arr2 32 32) (rowOf (V c main_v29 : Arr2 1 32) 0) :=
  (dat1 (F := Ideal) V c).arrAt_eq_of_cover 10 _
    (fun t _ => by
      show (cfg1.win 10).cut (grid1.coords t) ((dat1 (F := Ideal) V c).after 10 t) = _
      rw [after1_10]
      exact conv0_blk (fun _ => rfl) (fun _ => rfl) (Window.rect_emb_val win1_10 t) (Nat.zero_mul _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _))
    fun i => by
      obtain ⟨t, j, rfl⟩ := cover_rows (fun t => ((cfg1.win 10).blk t).view.emb) _ (fun t => Window.rect_emb_val win1_10 t)
        onto1 (fun _ => Nat.zero_mul _) i
      exact ⟨t, flush1_10 t, View.emb_mem_set _ j⟩

/-- A later convolution's block: both stages are dense, normalised and rectified; the second reads the first's rows. -/
theorem pay_apply (x0 x1 : Vec Ideal S10000x32 .f32) (x2 : Vec Ideal S32x32 .f32) (x3 x4 x5 x6 x7 : Vec Ideal S1x32 .f32)
    (x8 : Vec Ideal S32x32 .f32) (x9 x10 x11 x12 x13 : Vec Ideal S1x32 .f32) (j : S10000x32.Idx) :
    k2_pay1 (k2_pay2 x0 x1 x2 x3 x4 x5 x6 x7) (k2_pay3 x8) x9 x10 x11 x12 x13 j
      = convkRow (nrmOf normRsqrt (rowOf (x6 : Arr2 1 32) 0) (rowOf (x7 : Arr2 1 32) 0) (rowOf (x4 : Arr2 1 32) 0) (rowOf (x5 : Arr2 1 32) 0))
          (nrmOf normRsqrt (rowOf (x12 : Arr2 1 32) 0) (rowOf (x13 : Arr2 1 32) 0) (rowOf (x10 : Arr2 1 32) 0) (rowOf (x11 : Arr2 1 32) 0))
          (fun k => x0 (ix2 (j 0) k) + x1 (ix2 (j 0) k)) (mat (x2 : Arr2 32 32)) (rowOf (x3 : Arr2 1 32) 0)
          (mat (x8 : Arr2 32 32)) (rowOf (x9 : Arr2 1 32) 0) (j 1) := by
  obtain ⟨p, q, rfl⟩ : ∃ (p : Fin 10000) (q : Fin 32), j = ix2 p q := ⟨j 0, j 1, eq_ix2 j⟩
  unfold k2_pay1 k2_pay2 k2_pay3
  simp only [shapeCast_self, truncf_apply, maximumf_apply, addf_apply, mulf_apply, subf_apply, broadcast_apply,
    broadcastTo_1b_ab_apply, mm_plain (d := dot_S10000x32_S32x32_S10000x32_1_0_0_1_n_n) rfl]
  rfl

/-- The same blocks give the later convolution of `H` and `A` at `e j`. -/
theorem conv_blk {x0 x1 : Vec Ideal S10000x32 .f32} {H A : Arr2 100000 32} {e : S10000x32.Idx → S100000x32.Idx} {r : Fin 2 → Nat}
    (h0 : ∀ j, x0 j = H (e j)) (h1 : ∀ j, x1 j = A (e j)) (he : ∀ j a, ((e j a : Fin _) : Nat) = r a + j a) (hr : r 1 = 0)
    {x2 x8 : Vec Ideal S32x32 .f32} {x3 x4 x5 x6 x7 x9 x10 x11 x12 x13 : Vec Ideal S1x32 .f32}
    {W1 W2 : Arr2 32 32} {b1 g1 s1 m1 v1 b2 g2 s2 m2 v2 : Arr2 1 32}
    (p2 : x2 = W1) (p3 : x3 = b1) (p4 : x4 = g1) (p5 : x5 = s1) (p6 : x6 = m1) (p7 : x7 = v1)
    (p8 : x8 = W2) (p9 : x9 = b2) (p10 : x10 = g2) (p11 : x11 = s2) (p12 : x12 = m2) (p13 : x13 = v2) :
    out2_14 x0 x1 x2 x3 x4 x5 x6 x7 x8 x9 x10 x11 x12 x13
      = fun j => convkG (nrmOf normRsqrt (rowOf m1 0) (rowOf v1 0) (rowOf g1 0) (rowOf s1 0))
          (nrmOf normRsqrt (rowOf m2 0) (rowOf v2 0) (rowOf g2 0) (rowOf s2 0)) H A W1 (rowOf b1 0) W2 (rowOf b2 0) (e j) := by
  subst p2 p3 p4 p5 p6 p7 p8 p9 p10 p11 p12 p13
  unfold out2_14
  rw [View.canon_unit_zero zero2]
  simp only [View.ld_unit_zero (S := S10000x32) zero2, View.ld_unit_zero (S := S32x32) zero2, View.ld_unit_zero (S := S1x32) zero2]
  funext j
  have hcol : e j 1 = j 1 := Fin.ext ((he j 1).trans (by rw [hr]; exact Nat.zero_add _))
  rw [pay_apply]
  simp only [h0, h1, fun k => emb_ix2 he hr (j 0) k (e j 0) (he j 0)]
  rw [← hcol]
  rfl

theorem onto2 : ∀ q : Fin 10, ∃ t : Fin cfg2.N, win2_14.index t 0 * win2_14.size 0 = 10000 * q :=
  (by decide +kernel : ∀ q : Fin 10, ∃ t : Fin grid2.N, win2_14.index t 0 * 10000 = 10000 * q.val)

theorem final2 (c : Dev nD) :
    (dat2 (F := Ideal) V c).arrAt 14 cfg2.N
      = convkG (nrmOf normRsqrt (rowOf (V c main_v72 : Arr2 1 32) 0) (rowOf (V c main_v73 : Arr2 1 32) 0) (rowOf (V c main_v70 : Arr2 1 32) 0) (rowOf (V c main_v71 : Arr2 1 32) 0))
          (nrmOf normRsqrt (rowOf (V c main_v77 : Arr2 1 32) 0) (rowOf (V c main_v78 : Arr2 1 32) 0) (rowOf (V c main_v75 : Arr2 1 32) 0) (rowOf (V c main_v76 : Arr2 1 32) 0))
          (V c main_v34 : Arr2 100000 32) (V c main_v44 : Arr2 100000 32)
          (V c main_v46 : Arr2 32 32) (rowOf (V c main_v69 : Arr2 1 32) 0) (V c main_v58 : Arr2 32 32) (rowOf (V c main_v74 : Arr2 1 32) 0) :=
  (dat2 (F := Ideal) V c).arrAt_eq_of_cover 14 _
    (fun t _ => by
      show (cfg2.win 14).cut (grid2.coords t) ((dat2 (F := Ideal) V c).after 14 t) = _
      rw [after2_14]
      exact conv_blk (fun _ => rfl) (fun _ => rfl) (Window.rect_emb_val win2_14 t) (Nat.zero_mul _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _))
    fun i => by
      obtain ⟨t, j, rfl⟩ := cover_rows (fun t => ((cfg2.win 14).blk t).view.emb) _ (fun t => Window.rect_emb_val win2_14 t)
        onto2 (fun _ => Nat.zero_mul _) i
      exact ⟨t, flush2_14 t, View.emb_mem_set _ j⟩

theorem onto3 : ∀ q : Fin 10, ∃ t : Fin cfg3.N, win3_14.index t 0 * win3_14.size 0 = 10000 * q :=
  (by decide +kernel : ∀ q : Fin 10, ∃ t : Fin grid3.N, win3_14.index t 0 * 10000 = 10000 * q.val)

theorem final3 (c : Dev nD) :
    (dat3 (F := Ideal) V c).arrAt 14 cfg3.N
      = convkG (nrmOf normRsqrt (rowOf (V c main_v117 : Arr2 1 32) 0) (rowOf (V c main_v118 : Arr2 1 32) 0) (rowOf (V c main_v115 : Arr2 1 32) 0) (rowOf (V c main_v116 : Arr2 1 32) 0))
          (nrmOf normRsqrt (rowOf (V c main_v122 : Arr2 1 32) 0) (rowOf (V c main_v123 : Arr2 1 32) 0) (rowOf (V c main_v120 : Arr2 1 32) 0) (rowOf (V c main_v121 : Arr2 1 32) 0))
          (V c main_v79 : Arr2 100000 32) (V c main_v89 : Arr2 100000 32)
          (V c main_v91 : Arr2 32 32) (rowOf (V c main_v114 : Arr2 1 32) 0) (V c main_v103 : Arr2 32 32) (rowOf (V c main_v119 : Arr2 1 32) 0) :=
  (dat3 (F := Ideal) V c).arrAt_eq_of_cover 14 _
    (fun t _ => by
      show (cfg3.win 14).cut (grid3.coords t) ((dat3 (F := Ideal) V c).after 14 t) = _
      rw [after3_14]
      exact conv_blk (fun _ => rfl) (fun _ => rfl) (Window.rect_emb_val win3_14 t) (Nat.zero_mul _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _))
    fun i => by
      obtain ⟨t, j, rfl⟩ := cover_rows (fun t => ((cfg3.win 14).blk t).view.emb) _ (fun t => Window.rect_emb_val win3_14 t)
        onto3 (fun _ => Nat.zero_mul _) i
      exact ⟨t, flush3_14 t, View.emb_mem_set _ j⟩

theorem onto4 : ∀ q : Fin 10, ∃ t : Fin cfg4.N, win4_14.index t 0 * win4_14.size 0 = 10000 * q :=
  (by decide +kernel : ∀ q : Fin 10, ∃ t : Fin grid4.N, win4_14.index t 0 * 10000 = 10000 * q.val)

theorem final4 (c : Dev nD) :
    (dat4 (F := Ideal) V c).arrAt 14 cfg4.N
      = convkG (nrmOf normRsqrt (rowOf (V c main_v162 : Arr2 1 32) 0) (rowOf (V c main_v163 : Arr2 1 32) 0) (rowOf (V c main_v160 : Arr2 1 32) 0) (rowOf (V c main_v161 : Arr2 1 32) 0))
          (nrmOf normRsqrt (rowOf (V c main_v167 : Arr2 1 32) 0) (rowOf (V c main_v168 : Arr2 1 32) 0) (rowOf (V c main_v165 : Arr2 1 32) 0) (rowOf (V c main_v166 : Arr2 1 32) 0))
          (V c main_v124 : Arr2 100000 32) (V c main_v134 : Arr2 100000 32)
          (V c main_v136 : Arr2 32 32) (rowOf (V c main_v159 : Arr2 1 32) 0) (V c main_v148 : Arr2 32 32) (rowOf (V c main_v164 : Arr2 1 32) 0) :=
  (dat4 (F := Ideal) V c).arrAt_eq_of_cover 14 _
    (fun t _ => by
      show (cfg4.win 14).cut (grid4.coords t) ((dat4 (F := Ideal) V c).after 14 t) = _
      rw [after4_14]
      exact conv_blk (fun _ => rfl) (fun _ => rfl) (Window.rect_emb_val win4_14 t) (Nat.zero_mul _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _))
    fun i => by
      obtain ⟨t, j, rfl⟩ := cover_rows (fun t => ((cfg4.win 14).blk t).view.emb) _ (fun t => Window.rect_emb_val win4_14 t)
        onto4 (fun _ => Nat.zero_mul _) i
      exact ⟨t, flush4_14 t, View.emb_mem_set _ j⟩

/-- The head's block: a pooled row through a dense stage, rectified, normalised, rectified, then the readout. -/
theorem pay5_apply (x0 : Vec Ideal S1000x32 .f32) (x1 : Vec Ideal S32x32 .f32) (x2 x3 x4 x5 x6 : Vec Ideal S1x32 .f32)
    (x7 : Vec Ideal S32x10 .f32) (x8 : Vec Ideal S1x10 .f32) (j : S1000x10.Idx) :
    k5_pay1 (k5_pay2 x0 x1 x2 x3 x4 x5 x6 x7) x8 j
      = postRow (nrmOf normRsqrt (rowOf (x5 : Arr2 1 32) 0) (rowOf (x6 : Arr2 1 32) 0) (rowOf (x3 : Arr2 1 32) 0) (rowOf (x4 : Arr2 1 32) 0))
          (rowOf (x0 : Arr2 1000 32) (j 0)) (mat (x1 : Arr2 32 32)) (rowOf (x2 : Arr2 1 32) 0) (mat (x7 : Arr2 32 10))
          (rowOf (x8 : Arr2 1 10) 0) (j 1) := by
  obtain ⟨p, q, rfl⟩ : ∃ (p : Fin 1000) (q : Fin 10), j = ix2 p q := ⟨j 0, j 1, eq_ix2 j⟩
  unfold k5_pay1 k5_pay2
  simp only [shapeCast_self, truncf_apply, maximumf_apply, addf_apply, mulf_apply, subf_apply, broadcast_apply,
    broadcastTo_1b_ab_apply, mm_plain (d := dot_S1000x32_S32x32_S1000x32_1_0_0_1_n_n) rfl, mm_plain (d := dot_S1000x32_S32x10_S1000x10_1_0_0_1_n_n) rfl]
  rfl

theorem post_blk {x0 : Vec Ideal S1000x32 .f32} {x1 : Vec Ideal S32x32 .f32} {x2 x3 x4 x5 x6 : Vec Ideal S1x32 .f32}
    {x7 : Vec Ideal S32x10 .f32} {x8 : Vec Ideal S1x10 .f32}
    {P : Arr2 1000 32} {W : Arr2 32 32} {b g s m v : Arr2 1 32} {R : Arr2 32 10} {rb : Arr2 1 10}
    (p0 : x0 = P) (p1 : x1 = W) (p2 : x2 = b) (p3 : x3 = g) (p4 : x4 = s) (p5 : x5 = m) (p6 : x6 = v) (p7 : x7 = R) (p8 : x8 = rb) :
    out5_9 x0 x1 x2 x3 x4 x5 x6 x7 x8
      = postG (nrmOf normRsqrt (rowOf m 0) (rowOf v 0) (rowOf g 0) (rowOf s 0)) P W (rowOf b 0) R (rowOf rb 0) := by
  subst p0 p1 p2 p3 p4 p5 p6 p7 p8
  unfold out5_9
  rw [View.canon_unit_zero zero2]
  simp only [View.ld_unit_zero (S := S1000x32) zero2, View.ld_unit_zero (S := S32x32) zero2, View.ld_unit_zero (S := S1x32) zero2, View.ld_unit_zero (S := S32x10) zero2, View.ld_unit_zero (S := S1x10) zero2]
  exact funext (pay5_apply _ _ _ _ _ _ _ _ _)

theorem final5 (c : Dev nD) :
    (dat5 (F := Ideal) V c).arrAt 9 cfg5.N
      = postG (nrmOf normRsqrt (rowOf (V c main_v176 : Arr2 1 32) 0) (rowOf (V c main_v177 : Arr2 1 32) 0) (rowOf (V c main_v174 : Arr2 1 32) 0) (rowOf (V c main_v175 : Arr2 1 32) 0))
          (V c main_v172 : Arr2 1000 32) (V c main_arg25 : Arr2 32 32) (rowOf (V c main_v173 : Arr2 1 32) 0)
          (V c main_arg31 : Arr2 32 10) (rowOf (V c main_v178 : Arr2 1 10) 0) :=
  (dat5 (F := Ideal) V c).arrAt_eq_of_cover 9 _
    (fun t _ => by
      show (cfg5.win 9).cut (grid5.coords t) ((dat5 (F := Ideal) V c).after 9 t) = _
      rw [after5_9]
      exact (post_blk (blk_whole _ zero2 _ _)
        (blk_whole _ zero2 _ _) (blk_whole _ zero2 _ _) (blk_whole _ zero2 _ _) (blk_whole _ zero2 _ _)
        (blk_whole _ zero2 _ _) (blk_whole _ zero2 _ _) (blk_whole _ zero2 _ _) (blk_whole _ zero2 _ _)).trans
        (blk_whole main_v179 zero2 _ _).symm)
    fun i => ⟨t5_0, flush5_9 t5_0, by
      have h : ((cfg5.win 9).blk t5_0).view.emb i = i :=
        funext fun a => Fin.ext (Window.rect_emb_val_of_index_zero win5_9 t5_0 a (congrFun zero2 a) i)
      exact h ▸ View.emb_mem_set _ i⟩

end Cert.KernelIdeal.Val

end
-- ==== Proof.KGlue.lean ====
import proofs.«170228_j49160195670360_2_alg».proof.Proof.Gen.KernelIdeal.Frame
import proofs.«170228_j49160195670360_2_alg».proof.Proof.Net
import proofs.«170228_j49160195670360_2_alg».proof.Proof.NetStages
import proofs.«170228_j49160195670360_2_alg».proof.Proof.LibPlainDot
import proofs.«170228_j49160195670360_2_alg».proof.Proof.KConvK
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.Gin Idealize.ShloMosaic Idealize.ShloMosaic.ValueIdx Idealize.ShloMosaic.TcCoe Idealize.SL.Sem

variable (m : (ℓ : Loc nD τ sig) → Buf (Elt Ideal) ℓ) (ρ : Dev nD → PrngReg)

def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

def aggOf (src dst : (⟨S1600000, .i32⟩ : BufTy).Contents (Elt Ideal)) (h : Arr2 100000 32) : Arr2 100000 32 :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def aggK (e : (⟨S2x1600000, .i32⟩ : BufTy).Contents (Elt Ideal)) (h : Arr2 100000 32) : Arr2 100000 32 :=
  aggOf (srcOf e) (dstOf e) h

def poolK (b : (⟨S100000, .i32⟩ : BufTy).Contents (Elt Ideal)) (h : Arr2 100000 32) : Arr2 1000 32 :=
  Host.scatterAdd (F := Ideal) scatter_S1000x32_S100000x1_S100000x32_1_0_0_1
    (broadcastInDim S1000x32 ![] bcast_S_S1000x32 (constant (F := Ideal) S_ .f32 0x00000000#32))
    (broadcastInDim S100000x1 ![0] bcast_S100000_S100000x1_0 b) h

theorem row_addUnit {n : Nat} {a : Arr1 n} {h : (⟨1, ![n]⟩ : Shape).ShapeCasts ⟨2, ![1, n]⟩} :
    rowOf (shapeCast ⟨2, ![1, n]⟩ a h : Arr2 1 n) 0 = vec a :=
  funext fun q => shapeCast_a_1a_apply a h 0 q

/-- The two reshapes undo each other, and a one-row cut at offset `o` reads row `o`. -/
theorem row_cut {k n o : Nat} {X : Arr2 k n} {hs : (⟨2, ![k, n]⟩ : Shape).Slices ![o, 0] ⟨2, ![1, n]⟩}
    {h1 : (⟨2, ![1, n]⟩ : Shape).ShapeCasts ⟨1, ![n]⟩} {h2 : (⟨1, ![n]⟩ : Shape).ShapeCasts ⟨2, ![1, n]⟩}
    {l : Fin k} (hl : l.val = o := by rfl) :
    rowOf (shapeCast ⟨2, ![1, n]⟩ (shapeCast ⟨1, ![n]⟩ (extractStridedSlice ⟨2, ![1, n]⟩ ![o, 0] X hs) h1) h2 : Arr2 1 n) 0
      = rowOf X l := by
  rw [shapeCast_shapeCast]
  funext q
  exact slice2_axis0_apply o X hs 0 q l (by rw [hl]; rfl)

/-- Dropping the unit axis of a one-matrix cut at offset `o` reads matrix `o` entry by entry. -/
theorem slab_cut {k a b o : Nat} {X : Arr3 k a b} {hs : (⟨3, ![k, a, b]⟩ : Shape).Slices ![o, 0, 0] ⟨3, ![1, a, b]⟩}
    {h1 : (⟨3, ![1, a, b]⟩ : Shape).ShapeCasts ⟨2, ![a, b]⟩} {l : Fin k} (hl : l.val = o := by rfl) :
    (shapeCast ⟨2, ![a, b]⟩ (extractStridedSlice ⟨3, ![1, a, b]⟩ ![o, 0, 0] X hs) h1 : Arr2 a b) = slab X l := by
  funext i
  refine (shapeCast_dropUnit_apply ![a, b] _ h1 i).trans (extractStridedSlice_apply _ _ _ _ _ fun ax => ?_)
  match ax with
  | ⟨0, _⟩ => exact hl.trans (Nat.add_zero _).symm
  | ⟨1, _⟩ => exact (Nat.zero_add _).symm
  | ⟨2, _⟩ => exact (Nat.zero_add _).symm

/-- A buffer numbered below the first stretch's parameter rows that is no array of the first region. -/
abbrev Low (r : Ref sig .tc) : Prop := r.idx.val < 37 ∧ r.idx.val ≠ 0 ∧ r.idx.val ≠ 3
/-- … nor of the second. -/
abbrev Low' (r : Ref sig .tc) : Prop := Low r ∧ r.idx.val ≠ 9 ∧ r.idx.val ≠ 11

/-- No operation of the line writes a buffer numbered that low. -/
def Wr (ops : List (HloOp τ sig (Elt Ideal))) : Prop :=
  ops.Forall fun op => ∀ y : Ref sig .tc, Proc.devRef (τ := τ) .tc y ∈ op.writes → ¬ Low y

theorem after_low {ops : List (HloOp τ sig (Elt Ideal))} (hw : Wr ops) (V : Valuation τ sig (Elt Ideal)) {r : Ref sig .tc} (hr : Low r) :
    StableHlo.after ops V (Proc.devRef .tc r) = V (Proc.devRef .tc r) :=
  StableHlo.after_of_forall_not_mem ops V fun op hop hb => List.forall_iff_forall_mem.mp hw op hop r hb hr

theorem wrs : Wr hostOps1 ∧ Wr hostOps2 ∧ Wr hostOps3 ∧ Wr hostOps4 := by
  refine ⟨?_, ?_, ?_, ?_⟩ <;>
  · simp only [Wr, List.Forall, StableHlo.nullary_writes, StableHlo.unary_writes, StableHlo.binary_writes, StableHlo.ternary_writes, StableHlo.reshape_writes, Finset.mem_singleton]
    repeat' apply And.intro
    all_goals (intro y e; rw [Proc.devRef_injective _ e]; decide)

theorem regs : (∀ w, ¬ Low (Pipeline.arrRef spec0 w)) ∧ (∀ w, ¬ Low' (Pipeline.arrRef spec1 w)) ∧ (∀ w, ¬ Low' (Pipeline.arrRef spec2 w))
    ∧ (∀ w, ¬ Low' (Pipeline.arrRef spec3 w)) ∧ ∀ w, ¬ Low' (Pipeline.arrRef spec4 w) := by decide

variable (c : Dev nD) {r : Ref sig .tc}

/-- Such a buffer still holds, after each of the first five regions, what the first stretch left in it. -/
theorem back1 (h : Low r) : W2 (F := Ideal) m ρ c (no_index (Proc.devRef .tc r)) = StableHlo.after hostOps0 (W0 m ρ c) (Proc.devRef .tc r) :=
  W2_of_ne m ρ c r fun w e => regs.1 w (e ▸ h)
theorem back2 (h : Low' r) : W4 (F := Ideal) m ρ c (no_index (Proc.devRef .tc r)) = StableHlo.after hostOps0 (W0 m ρ c) (Proc.devRef .tc r) :=
  (W4_of_ne m ρ c r fun w e => regs.2.1 w (e ▸ h)).trans ((after_low wrs.1 _ h.1).trans (back1 m ρ c h.1))
theorem back3 (h : Low' r) : W6 (F := Ideal) m ρ c (no_index (Proc.devRef .tc r)) = StableHlo.after hostOps0 (W0 m ρ c) (Proc.devRef .tc r) :=
  (W6_of_ne m ρ c r fun w e => regs.2.2.1 w (e ▸ h)).trans ((after_low wrs.2.1 _ h.1).trans (back2 m ρ c h))
theorem back4 (h : Low' r) : W8 (F := Ideal) m ρ c (no_index (Proc.devRef .tc r)) = StableHlo.after hostOps0 (W0 m ρ c) (Proc.devRef .tc r) :=
  (W8_of_ne m ρ c r fun w e => regs.2.2.2.1 w (e ▸ h)).trans ((after_low wrs.2.2.1 _ h.1).trans (back3 m ρ c h))
theorem back5 (h : Low' r) : W10 (F := Ideal) m ρ c (no_index (Proc.devRef .tc r)) = StableHlo.after hostOps0 (W0 m ρ c) (Proc.devRef .tc r) :=
  (W10_of_ne m ρ c r fun w e => regs.2.2.2.2 w (e ▸ h)).trans ((after_low wrs.2.2.2 _ h.1).trans (back4 m ρ c h))

theorem nrmOf_congr {norm : EReal → EReal → EReal → EReal → EReal → EReal} {a a' b b' g g' d d' : Fin 32 → EReal}
    (h1 : a = a') (h2 : b = b') (h3 : g = g') (h4 : d = d') : nrmOf norm a b g d = nrmOf norm a' b' g' d' := by
  subst h1 h2 h3 h4; rfl
theorem preG_congr {n : Nat} {nrm nrm' : Fin 32 → EReal → EReal} {X X' : Arr2 n 128} {W W' : Arr2 128 32} {b b' : Fin 32 → EReal}
    (h1 : nrm = nrm') (h2 : X = X') (h3 : W = W') (h4 : b = b') : preG nrm X W b = preG nrm' X' W' b' := by
  subst h1 h2 h3 h4; rfl
theorem conv0G_congr {n : Nat} {nrm nrm' : Fin 32 → EReal → EReal} {H H' A A' : Arr2 n 32} {W1 W1' W2 W2' : Arr2 32 32}
    {b1 b1' b2 b2' : Fin 32 → EReal}
    (h1 : nrm = nrm') (h2 : H = H') (h3 : A = A') (h4 : W1 = W1') (h5 : b1 = b1') (h6 : W2 = W2') (h7 : b2 = b2') :
    conv0G nrm H A W1 b1 W2 b2 = conv0G nrm' H' A' W1' b1' W2' b2' := by
  subst h1 h2 h3 h4 h5 h6 h7; rfl
theorem convkG_congr {n : Nat} {nrm1 nrm1' nrm2 nrm2' : Fin 32 → EReal → EReal} {H H' A A' : Arr2 n 32} {W1 W1' W2 W2' : Arr2 32 32}
    {b1 b1' b2 b2' : Fin 32 → EReal}
    (h0 : nrm1 = nrm1') (h1 : nrm2 = nrm2') (h2 : H = H') (h3 : A = A') (h4 : W1 = W1') (h5 : b1 = b1') (h6 : W2 = W2') (h7 : b2 = b2') :
    convkG nrm1 nrm2 H A W1 b1 W2 b2 = convkG nrm1' nrm2' H' A' W1' b1' W2' b2' := by
  subst h0 h1 h2 h3 h4 h5 h6 h7; rfl
theorem postG_congr {n : Nat} {nrm nrm' : Fin 32 → EReal → EReal} {P P' : Arr2 n 32} {PW PW' : Arr2 32 32} {pb pb' : Fin 32 → EReal}
    {RW RW' : Arr2 32 10} {rb rb' : Fin 10 → EReal}
    (h1 : nrm = nrm') (h2 : P = P') (h3 : PW = PW') (h4 : pb = pb') (h5 : RW = RW') (h6 : rb = rb') :
    postG nrm P PW pb RW rb = postG nrm' P' PW' pb' RW' rb' := by
  subst h1 h2 h3 h4 h5 h6; rfl

/-- A buffer after a line of operations, read back through the operations to the buffers the line started from. -/
local macro "reads" : tactic => `(tactic| simp (disch := decide) only [StableHlo.after_cons, StableHlo.after_nil,
  StableHlo.nullary_result_ne', StableHlo.unary_result_ne', StableHlo.binary_result_ne', StableHlo.ternary_result_ne', StableHlo.reshape_result_ne',
  StableHlo.nullary_result', StableHlo.unary_result', StableHlo.binary_result', StableHlo.ternary_result', StableHlo.reshape_result'])

/-- Outer normaliser `o` of the four stacked ones. -/
abbrev nrmO (o : Fin 4) : Fin 32 → EReal → EReal :=
  nrmOf normRsqrt (rowOf (m ((c : Thread nD τ).loc main_arg23) : Arr2 4 32) o) (rowOf (m ((c : Thread nD τ).loc main_arg24) : Arr2 4 32) o) (rowOf (m ((c : Thread nD τ).loc main_arg21) : Arr2 4 32) o) (rowOf (m ((c : Thread nD τ).loc main_arg22) : Arr2 4 32) o)

/-- Inner normaliser of stacked convolution `k`. -/
abbrev nrmK (k : Fin 3) : Fin 32 → EReal → EReal :=
  nrmOf normRsqrt (rowOf (m ((c : Thread nD τ).loc main_arg17) : Arr2 3 32) k) (rowOf (m ((c : Thread nD τ).loc main_arg18) : Arr2 3 32) k) (rowOf (m ((c : Thread nD τ).loc main_arg15) : Arr2 3 32) k) (rowOf (m ((c : Thread nD τ).loc main_arg16) : Arr2 3 32) k)

/-- What stacked convolution `k`, followed by outer normaliser `o`, makes of node features `h`. -/
abbrev stageK (k : Fin 3) (o : Fin 4) (h : Arr2 100000 32) : Arr2 100000 32 :=
  convkG (nrmK m c k) (nrmO m c o) h (aggK (m ((c : Thread nD τ).loc main_arg1)) h) (slab (m ((c : Thread nD τ).loc main_arg13) : Arr3 3 32 32) k) (rowOf (m ((c : Thread nD τ).loc main_arg14) : Arr2 3 32) k) (slab (m ((c : Thread nD τ).loc main_arg19) : Arr3 3 32 32) k) (rowOf (m ((c : Thread nD τ).loc main_arg20) : Arr2 3 32) k)

theorem chain0 : (W2 (F := Ideal) m ρ c (Proc.devRef .tc main_v9) : Arr2 100000 32)
    = preG (nrmOf normRsqrt (vec (m ((c : Thread nD τ).loc main_arg7) : Arr1 32)) (vec (m ((c : Thread nD τ).loc main_arg8) : Arr1 32)) (vec (m ((c : Thread nD τ).loc main_arg5) : Arr1 32)) (vec (m ((c : Thread nD τ).loc main_arg6) : Arr1 32)))
        (m ((c : Thread nD τ).loc main_arg0) : Arr2 100000 128) (m ((c : Thread nD τ).loc main_arg3) : Arr2 128 32) (vec (m ((c : Thread nD τ).loc main_arg4) : Arr1 32)) := by
  refine (W2_arr m ρ c 7).trans ((final0 (V1 m ρ) c).trans ?_)
  simp only [V1, W1]; reads
  exact preG_congr (nrmOf_congr row_addUnit row_addUnit row_addUnit row_addUnit) rfl rfl row_addUnit

theorem chain1 : (W4 (F := Ideal) m ρ c (Proc.devRef .tc main_v34) : Arr2 100000 32)
    = conv0G (nrmO m c 0) (W2 m ρ c (Proc.devRef .tc main_v9)) (aggK (m ((c : Thread nD τ).loc main_arg1)) (W2 m ρ c (Proc.devRef .tc main_v9)))
        (m ((c : Thread nD τ).loc main_arg9) : Arr2 32 32) (vec (m ((c : Thread nD τ).loc main_arg10) : Arr1 32)) (m ((c : Thread nD τ).loc main_arg11) : Arr2 32 32) (vec (m ((c : Thread nD τ).loc main_arg12) : Arr1 32)) := by
  refine (W4_arr m ρ c 10).trans ((final1 (V3 m ρ) c).trans ?_)
  simp only [V3, W3]; reads
  simp (disch := decide) only [back1 m ρ c]; reads
  exact conv0G_congr (nrmOf_congr row_cut row_cut row_cut row_cut) rfl rfl rfl row_addUnit rfl row_addUnit

theorem nrms2 : nrmOf normRsqrt (rowOf (V5 m ρ c main_v72 : Arr2 1 32) 0) (rowOf (V5 m ρ c main_v73 : Arr2 1 32) 0) (rowOf (V5 m ρ c main_v70 : Arr2 1 32) 0) (rowOf (V5 m ρ c main_v71 : Arr2 1 32) 0) = nrmK m c 0
    ∧ nrmOf normRsqrt (rowOf (V5 m ρ c main_v77 : Arr2 1 32) 0) (rowOf (V5 m ρ c main_v78 : Arr2 1 32) 0) (rowOf (V5 m ρ c main_v75 : Arr2 1 32) 0) (rowOf (V5 m ρ c main_v76 : Arr2 1 32) 0) = nrmO m c 1 := by
  simp only [V5, W5]; reads
  simp (disch := decide) only [back2 m ρ c]; reads
  exact ⟨nrmOf_congr row_cut row_cut row_cut row_cut, nrmOf_congr row_cut row_cut row_cut row_cut⟩
theorem chain2 : W6 (F := Ideal) m ρ c (Proc.devRef .tc main_v79) = stageK m c 0 1 (W4 m ρ c (Proc.devRef .tc main_v34)) := by
  refine (W6_arr m ρ c 14).trans ((final2 (V5 m ρ) c).trans ?_)
  rw [(nrms2 m ρ c).1, (nrms2 m ρ c).2]
  simp only [V5, W5]; reads
  simp (disch := decide) only [back2 m ρ c]; reads
  exact convkG_congr rfl rfl rfl rfl slab_cut row_cut slab_cut row_cut

theorem nrms3 : nrmOf normRsqrt (rowOf (V7 m ρ c main_v117 : Arr2 1 32) 0) (rowOf (V7 m ρ c main_v118 : Arr2 1 32) 0) (rowOf (V7 m ρ c main_v115 : Arr2 1 32) 0) (rowOf (V7 m ρ c main_v116 : Arr2 1 32) 0) = nrmK m c 1
    ∧ nrmOf normRsqrt (rowOf (V7 m ρ c main_v122 : Arr2 1 32) 0) (rowOf (V7 m ρ c main_v123 : Arr2 1 32) 0) (rowOf (V7 m ρ c main_v120 : Arr2 1 32) 0) (rowOf (V7 m ρ c main_v121 : Arr2 1 32) 0) = nrmO m c 2 := by
  simp only [V7, W7]; reads
  simp (disch := decide) only [back3 m ρ c]; reads
  exact ⟨nrmOf_congr row_cut row_cut row_cut row_cut, nrmOf_congr row_cut row_cut row_cut row_cut⟩
theorem chain3 : W8 (F := Ideal) m ρ c (Proc.devRef .tc main_v124) = stageK m c 1 2 (W6 m ρ c (Proc.devRef .tc main_v79)) := by
  refine (W8_arr m ρ c 14).trans ((final3 (V7 m ρ) c).trans ?_)
  rw [(nrms3 m ρ c).1, (nrms3 m ρ c).2]
  simp only [V7, W7]; reads
  simp (disch := decide) only [back3 m ρ c]; reads
  exact convkG_congr rfl rfl rfl rfl slab_cut row_cut slab_cut row_cut

theorem nrms4 : nrmOf normRsqrt (rowOf (V9 m ρ c main_v162 : Arr2 1 32) 0) (rowOf (V9 m ρ c main_v163 : Arr2 1 32) 0) (rowOf (V9 m ρ c main_v160 : Arr2 1 32) 0) (rowOf (V9 m ρ c main_v161 : Arr2 1 32) 0) = nrmK m c 2
    ∧ nrmOf normRsqrt (rowOf (V9 m ρ c main_v167 : Arr2 1 32) 0) (rowOf (V9 m ρ c main_v168 : Arr2 1 32) 0) (rowOf (V9 m ρ c main_v165 : Arr2 1 32) 0) (rowOf (V9 m ρ c main_v166 : Arr2 1 32) 0) = nrmO m c 3 := by
  simp only [V9, W9]; reads
  simp (disch := decide) only [back4 m ρ c]; reads
  exact ⟨nrmOf_congr row_cut row_cut row_cut row_cut, nrmOf_congr row_cut row_cut row_cut row_cut⟩
theorem chain4 : W10 (F := Ideal) m ρ c (Proc.devRef .tc main_v169) = stageK m c 2 3 (W8 m ρ c (Proc.devRef .tc main_v124)) := by
  refine (W10_arr m ρ c 14).trans ((final4 (V9 m ρ) c).trans ?_)
  rw [(nrms4 m ρ c).1, (nrms4 m ρ c).2]
  simp only [V9, W9]; reads
  simp (disch := decide) only [back4 m ρ c]; reads
  exact convkG_congr rfl rfl rfl rfl slab_cut row_cut slab_cut row_cut

theorem chain5 : (W12 (F := Ideal) m ρ c (Proc.devRef .tc main_v179) : Arr2 1000 10)
    = postG (nrmOf normRsqrt (vec (m ((c : Thread nD τ).loc main_arg29) : Arr1 32)) (vec (m ((c : Thread nD τ).loc main_arg30) : Arr1 32)) (vec (m ((c : Thread nD τ).loc main_arg27) : Arr1 32)) (vec (m ((c : Thread nD τ).loc main_arg28) : Arr1 32)))
        (poolK (m ((c : Thread nD τ).loc main_arg2)) (W10 m ρ c (Proc.devRef .tc main_v169))) (m ((c : Thread nD τ).loc main_arg25) : Arr2 32 32) (vec (m ((c : Thread nD τ).loc main_arg26) : Arr1 32)) (m ((c : Thread nD τ).loc main_arg31) : Arr2 32 10) (vec (m ((c : Thread nD τ).loc main_arg32) : Arr1 10)) := by
  refine (W12_arr m ρ c 9).trans ((final5 (V11 m ρ) c).trans ?_)
  simp only [V11, W11]; reads
  simp (disch := decide) only [back5 m ρ c]; reads
  exact postG_congr (nrmOf_congr row_addUnit row_addUnit row_addUnit row_addUnit) rfl rfl row_addUnit rfl row_addUnit

theorem result_eq :
    W12 (F := Ideal) m ρ c (Proc.devRef .tc main_v179)
      = net normRsqrt (aggK (m ((c : Thread nD τ).loc main_arg1))) (poolK (m ((c : Thread nD τ).loc main_arg2)))
          (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) :=
  net_of_stages (e0 := chain0 m ρ c) (e1 := chain1 m ρ c) (e2 := chain2 m ρ c) (e3 := chain3 m ρ c) (e4 := chain4 m ρ c) (e5 := chain5 m ρ c) ..

end Cert.KernelIdeal.Val

end
-- ==== Proof.RStages.lean ====
/- The reference program's six dense stages: each is a composition of a few array operations, read at an index once over any sizes. -/
import proofs.«170228_j49160195670360_2_alg».proof.Proof.RRead
import proofs.«170228_j49160195670360_2_alg».proof.Proof.Net
import Idealize.ShloMosaic.Lib.ValueLayout
import Idealize.ShloMosaic.Lib.KernelVsHost
import Idealize.ShloMosaic.Lib.IdealHost
import Idealize.ShloMosaic.Lib.StackMember

noncomputable section

open scoped BigOperators

namespace Cert.ReferenceIdeal.RefVal

open Cert.ReferenceIdeal Cert.ReferenceIdeal.Gen Cert.ReferenceIdeal.RRead Cert.Gin Idealize.ShloMosaic Idealize.ShloMosaic.ValueIdx

section Blocks

variable {M K N : Nat}

theorem bcastRow : (⟨1, ![N]⟩ : Shape).BroadcastsInDim ⟨2, ![1, N]⟩ ![1] :=
  ⟨fun _ _ _ => Subsingleton.elim _ _, fun a => match a with | ⟨0, _⟩ => Or.inr rfl⟩

theorem bcastRows : (⟨2, ![1, N]⟩ : Shape).BroadcastsInDim ⟨2, ![M, N]⟩ ![0, 1] :=
  ⟨(by decide : Function.Injective (![0, 1] : Fin 2 → Fin 2)), fun a => match a with | ⟨0, _⟩ => Or.inl rfl | ⟨1, _⟩ => Or.inr rfl⟩

theorem bcastScalar (T : Shape) : S_.BroadcastsInDim T ![] := ⟨fun a => a.elim0, fun a => a.elim0⟩

theorem sliceRow (k : Fin M) : (⟨2, ![M, 32]⟩ : Shape).Slices ![k.val, 0] S1x32 :=
  ⟨rfl, fun a => match a with | ⟨0, _⟩ => k.isLt | ⟨1, _⟩ => Nat.le_refl 32⟩

/-- Row `k` of a stack of rows, as a vector. -/
def rowV (x : FVec Ideal ⟨2, ![M, 32]⟩ .f32) (k : Fin M) : FVec Ideal S32 .f32 :=
  shapeCast _ (extractStridedSlice S1x32 ![k.val, 0] x (sliceRow k)) shapeCasts_S1x32_S32

theorem rowV_apply (x : FVec Ideal ⟨2, ![M, 32]⟩ .f32) (k : Fin M) (q : Fin 32) : rowV x k (ix1 q) = x (ix2 k q) :=
  (shapeCast_1a_a_apply _ _ q).trans (slice2_axis0_apply _ x _ 0 q k rfl)

/-- A vector repeated along `M` rows. -/
def rep (y : FVec Ideal ⟨1, ![N]⟩ .f32) : FVec Ideal ⟨2, ![M, N]⟩ .f32 :=
  broadcastInDim ⟨2, ![M, N]⟩ ![0, 1] bcastRows (broadcastInDim ⟨2, ![1, N]⟩ ![1] bcastRow y)

theorem rep_apply (y : FVec Ideal ⟨1, ![N]⟩ .f32) (p : Fin M) (q : Fin N) : rep y (ix2 p q) = y (ix1 q) :=
  (broadcastInDim_oneRow_apply _ _ p q).trans (broadcastInDim_apply _ _ y _ (ix1 q) fun a => match a with
    | ⟨0, _⟩ => by have := q.isLt; show q.val = if N = 1 then 0 else q.val; split <;> omega)

/-- The product with `W` plus the bias, on every row. -/
def aff (z : FVec Ideal ⟨2, ![M, K]⟩ .f32) (W : FVec Ideal ⟨2, ![K, N]⟩ .f32) (b : FVec Ideal ⟨1, ![N]⟩ .f32) :
    FVec Ideal ⟨2, ![M, N]⟩ .f32 :=
  addf (Host.dotGeneral (DotDims.plain M K N) none z W) (rep b)

theorem aff_apply (z : FVec Ideal ⟨2, ![M, K]⟩ .f32) (W : FVec Ideal ⟨2, ![K, N]⟩ .f32) (b : FVec Ideal ⟨1, ![N]⟩ .f32)
    (p : Fin M) (q : Fin N) : aff z W b (ix2 p q) = (∑ j : Fin K, z (ix2 p j) * W (ix2 j q)) + b (ix1 q) :=
  congrArg₂ (· + ·) (StackMember.dotGeneral_plain_apply none z W p q) (rep_apply b p q)

/-- The rectifier on every entry. -/
def rect {T : Shape} (y : FVec Ideal T .f32) : FVec Ideal T .f32 :=
  maximumf y (broadcastInDim T ![] (bcastScalar T) (constant S_ .f32 0x00000000#32))

theorem rect_apply {T : Shape} (y : FVec Ideal T .f32) (i : T.Idx) : rect y i = relu (y i) :=
  congrArg (max (y i)) (broadcastInDim_scalar_apply _ _ i)

/-- The normalisation by four vectors repeated along the rows. -/
def nrmV (y : FVec Ideal ⟨2, ![M, N]⟩ .f32) (m v g be : FVec Ideal ⟨1, ![N]⟩ .f32) : FVec Ideal ⟨2, ![M, N]⟩ .f32 :=
  addf (mulf (Host.divf (subf y (rep m))
    (rep (Host.sqrt (addf v (broadcastInDim _ ![] (bcastScalar _) (constant S_ .f32 0x3727C5AC#32)))))) (rep g)) (rep be)

theorem nrmV_apply (y : FVec Ideal ⟨2, ![M, N]⟩ .f32) (m v g be : FVec Ideal ⟨1, ![N]⟩ .f32) (p : Fin M) (q : Fin N) :
    nrmV y m v g be (ix2 p q) = normDiv (m (ix1 q)) (v (ix1 q)) (g (ix1 q)) (be (ix1 q)) (y (ix2 p q)) := by
  simp only [nrmV, addf, mulf, subf, Host.divf, Host.sqrt, rep_apply, broadcastInDim_scalar_apply]
  rfl

/-- Two arrays of `M` rows are equal when they are at every row and column. -/
theorem ext2 {f g : FVec Ideal ⟨2, ![M, N]⟩ .f32} (h : ∀ p q, f (ix2 p q) = g (ix2 p q)) : f = g :=
  funext fun i => by rw [eq_ix2 i]; exact h _ _

end Blocks

/-- Matrix `k` of a stack of three matrices is a block of the stack. -/
theorem sliceSlab (k : Fin 3) : S3x32x32.Slices ![k.val, 0, 0] S1x32x32 :=
  ⟨rfl, fun a => match a with | ⟨0, _⟩ => k.isLt | ⟨1, _⟩ => Nat.le_refl 32 | ⟨2, _⟩ => Nat.le_refl 32⟩

/-- Matrix `k` of a stack of three matrices. -/
def slabM (x : FVec Ideal S3x32x32 .f32) (k : Fin 3) : FVec Ideal S32x32 .f32 :=
  shapeCast _ (extractStridedSlice S1x32x32 ![k.val, 0, 0] x (sliceSlab k)) shapeCasts_S1x32x32_S32x32

theorem slabM_apply (x : FVec Ideal S3x32x32 .f32) (k : Fin 3) (j q : Fin 32) : slabM x k (ix2 j q) = x (ix3 k j q) :=
  (shapeCast_1ab_ab_apply _ _ j q).trans (extractStridedSlice_apply _ x _ _ (ix3 k j q) fun a => match a with
    | ⟨0, _⟩ => rfl
    | ⟨1, _⟩ => (Nat.zero_add _).symm
    | ⟨2, _⟩ => (Nat.zero_add _).symm)

/-- A later convolution is two layers: the inner parameters at slab and row `k`, the outer normalisation at row `k'`. -/
theorem conv_eq (k : Fin 3) (k' : Fin 4) (h a : FVec Ideal S100000x32 .f32) (x13 x19 : FVec Ideal S3x32x32 .f32)
    (x14 x15 x16 x17 x18 x20 : FVec Ideal S3x32 .f32) (x21 x22 x23 x24 : FVec Ideal S4x32 .f32) :
    rect (nrmV (aff (rect (nrmV (aff (addf h a) (slabM x13 k) (rowV x14 k)) (rowV x17 k) (rowV x18 k) (rowV x15 k) (rowV x16 k)))
        (slabM x19 k) (rowV x20 k)) (rowV x23 k') (rowV x24 k') (rowV x21 k') (rowV x22 k'))
      = convkG (nrmOf normDiv (rowOf (x17 : Arr2 3 32) k) (rowOf (x18 : Arr2 3 32) k) (rowOf (x15 : Arr2 3 32) k) (rowOf (x16 : Arr2 3 32) k))
          (nrmOf normDiv (rowOf (x23 : Arr2 4 32) k') (rowOf (x24 : Arr2 4 32) k') (rowOf (x21 : Arr2 4 32) k') (rowOf (x22 : Arr2 4 32) k'))
          h a (slab (x13 : Arr3 3 32 32) k) (rowOf (x14 : Arr2 3 32) k) (slab (x19 : Arr3 3 32 32) k) (rowOf (x20 : Arr2 3 32) k) :=
  ext2 fun p q => by
    simp only [rect_apply, nrmV_apply, aff_apply, rowV_apply, slabM_apply]
    rfl

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x32, .f32⟩ : BufTy).Contents (Elt Ideal))
  (x4 x5 x6 x7 x8 : (⟨S32, .f32⟩ : BufTy).Contents (Elt Ideal)) (x9 : (⟨S32x32, .f32⟩ : BufTy).Contents (Elt Ideal))
  (x10 : (⟨S32, .f32⟩ : BufTy).Contents (Elt Ideal)) (x11 : (⟨S32x32, .f32⟩ : BufTy).Contents (Elt Ideal))
  (x12 : (⟨S32, .f32⟩ : BufTy).Contents (Elt Ideal)) (x13 : (⟨S3x32x32, .f32⟩ : BufTy).Contents (Elt Ideal))
  (x14 x15 x16 x17 x18 : (⟨S3x32, .f32⟩ : BufTy).Contents (Elt Ideal)) (x19 : (⟨S3x32x32, .f32⟩ : BufTy).Contents (Elt Ideal))
  (x20 : (⟨S3x32, .f32⟩ : BufTy).Contents (Elt Ideal)) (x21 x22 x23 x24 : (⟨S4x32, .f32⟩ : BufTy).Contents (Elt Ideal))
  (x25 : (⟨S32x32, .f32⟩ : BufTy).Contents (Elt Ideal)) (x26 x27 x28 x29 x30 : (⟨S32, .f32⟩ : BufTy).Contents (Elt Ideal))
  (x31 : (⟨S32x10, .f32⟩ : BufTy).Contents (Elt Ideal)) (x32 : (⟨S10, .f32⟩ : BufTy).Contents (Elt Ideal))

theorem stage_pre :
    val_main_v23 (F := Ideal) x0 x3 x4 x5 x6 x7 x8
      = preG (nrmOf normDiv (vec x7) (vec x8) (vec x5) (vec x6)) (x0 : Arr2 100000 128) (x3 : Arr2 128 32) (vec x4) :=
  ext2 fun p q => by
    show rect (nrmV (aff x0 x3 x4) x7 x8 x5 x6) (ix2 p q) = _
    simp only [rect_apply, nrmV_apply, aff_apply]
    rfl

theorem stage_conv0 :
    val_main_v67 (F := Ideal) x0 x1 x3 x4 x5 x6 x7 x8 x9 x10 x11 x12 x21 x22 x23 x24
      = conv0G (nrmOf normDiv (rowOf (x23 : Arr2 4 32) 0) (rowOf (x24 : Arr2 4 32) 0) (rowOf (x21 : Arr2 4 32) 0) (rowOf (x22 : Arr2 4 32) 0))
          (val_main_v23 (F := Ideal) x0 x3 x4 x5 x6 x7 x8) (val_main_v33 (F := Ideal) x0 x1 x3 x4 x5 x6 x7 x8)
          (x9 : Arr2 32 32) (vec x10) (x11 : Arr2 32 32) (vec x12) :=
  ext2 fun p q => by
    show rect (nrmV (aff (rect (aff (addf _ _) x9 x10)) x11 x12) (rowV x23 0) (rowV x24 0) (rowV x21 0) (rowV x22 0)) (ix2 p q) = _
    simp only [rect_apply, nrmV_apply, aff_apply, rowV_apply]
    rfl

theorem stage_convA :
    val_main_v142 (F := Ideal) x0 x1 x3 x4 x5 x6 x7 x8 x9 x10 x11 x12 x13 x14 x15 x16 x17 x18 x19 x20 x21 x22 x23 x24
      = convkG (nrmOf normDiv (rowOf (x17 : Arr2 3 32) 0) (rowOf (x18 : Arr2 3 32) 0) (rowOf (x15 : Arr2 3 32) 0) (rowOf (x16 : Arr2 3 32) 0))
          (nrmOf normDiv (rowOf (x23 : Arr2 4 32) 1) (rowOf (x24 : Arr2 4 32) 1) (rowOf (x21 : Arr2 4 32) 1) (rowOf (x22 : Arr2 4 32) 1))
          (val_main_v67 (F := Ideal) x0 x1 x3 x4 x5 x6 x7 x8 x9 x10 x11 x12 x21 x22 x23 x24) (val_main_v77 (F := Ideal) x0 x1 x3 x4 x5 x6 x7 x8 x9 x10 x11 x12 x21 x22 x23 x24)
          (slab (x13 : Arr3 3 32 32) 0) (rowOf (x14 : Arr2 3 32) 0) (slab (x19 : Arr3 3 32 32) 0) (rowOf (x20 : Arr2 3 32) 0) :=
  conv_eq 0 1 _ _ x13 x19 x14 x15 x16 x17 x18 x20 x21 x22 x23 x24

theorem stage_convB :
    val_main_v217 (F := Ideal) x0 x1 x3 x4 x5 x6 x7 x8 x9 x10 x11 x12 x13 x14 x15 x16 x17 x18 x19 x20 x21 x22 x23 x24
      = convkG (nrmOf normDiv (rowOf (x17 : Arr2 3 32) 1) (rowOf (x18 : Arr2 3 32) 1) (rowOf (x15 : Arr2 3 32) 1) (rowOf (x16 : Arr2 3 32) 1))
          (nrmOf normDiv (rowOf (x23 : Arr2 4 32) 2) (rowOf (x24 : Arr2 4 32) 2) (rowOf (x21 : Arr2 4 32) 2) (rowOf (x22 : Arr2 4 32) 2))
          (val_main_v142 (F := Ideal) x0 x1 x3 x4 x5 x6 x7 x8 x9 x10 x11 x12 x13 x14 x15 x16 x17 x18 x19 x20 x21 x22 x23 x24) (val_main_v152 (F := Ideal) x0 x1 x3 x4 x5 x6 x7 x8 x9 x10 x11 x12 x13 x14 x15 x16 x17 x18 x19 x20 x21 x22 x23 x24)
          (slab (x13 : Arr3 3 32 32) 1) (rowOf (x14 : Arr2 3 32) 1) (slab (x19 : Arr3 3 32 32) 1) (rowOf (x20 : Arr2 3 32) 1) :=
  conv_eq 1 2 _ _ x13 x19 x14 x15 x16 x17 x18 x20 x21 x22 x23 x24

theorem stage_convC :
    val_main_v292 (F := Ideal) x0 x1 x3 x4 x5 x6 x7 x8 x9 x10 x11 x12 x13 x14 x15 x16 x17 x18 x19 x20 x21 x22 x23 x24
      = convkG (nrmOf normDiv (rowOf (x17 : Arr2 3 32) 2) (rowOf (x18 : Arr2 3 32) 2) (rowOf (x15 : Arr2 3 32) 2) (rowOf (x16 : Arr2 3 32) 2))
          (nrmOf normDiv (rowOf (x23 : Arr2 4 32) 3) (rowOf (x24 : Arr2 4 32) 3) (rowOf (x21 : Arr2 4 32) 3) (rowOf (x22 : Arr2 4 32) 3))
          (val_main_v217 (F := Ideal) x0 x1 x3 x4 x5 x6 x7 x8 x9 x10 x11 x12 x13 x14 x15 x16 x17 x18 x19 x20 x21 x22 x23 x24) (val_main_v227 (F := Ideal) x0 x1 x3 x4 x5 x6 x7 x8 x9 x10 x11 x12 x13 x14 x15 x16 x17 x18 x19 x20 x21 x22 x23 x24)
          (slab (x13 : Arr3 3 32 32) 2) (rowOf (x14 : Arr2 3 32) 2) (slab (x19 : Arr3 3 32 32) 2) (rowOf (x20 : Arr2 3 32) 2) :=
  conv_eq 2 3 _ _ x13 x19 x14 x15 x16 x17 x18 x20 x21 x22 x23 x24

theorem stage_post :
    val_main_v320 (F := Ideal) x0 x1 x2 x3 x4 x5 x6 x7 x8 x9 x10 x11 x12 x13 x14 x15 x16 x17 x18 x19 x20 x21 x22 x23 x24 x25 x26 x27 x28 x29 x30 x31 x32
      = postG (nrmOf normDiv (vec x29) (vec x30) (vec x27) (vec x28)) (val_main_v295 (F := Ideal) x0 x1 x2 x3 x4 x5 x6 x7 x8 x9 x10 x11 x12 x13 x14 x15 x16 x17 x18 x19 x20 x21 x22 x23 x24)
          (x25 : Arr2 32 32) (vec x26) (x31 : Arr2 32 10) (vec x32) :=
  ext2 fun p q => by
    show aff (rect (nrmV (rect (aff _ x25 x26)) x29 x30 x27 x28)) x31 x32 (ix2 p q) = _
    simp only [rect_apply, nrmV_apply, aff_apply]
    rfl

end Cert.ReferenceIdeal.RefVal

end
-- ==== Proof.RChain.lean ====
import proofs.«170228_j49160195670360_2_alg».proof.Proof.RStages
import proofs.«170228_j49160195670360_2_alg».proof.Proof.NetStages

set_option maxRecDepth 16384

noncomputable section

namespace Cert.ReferenceIdeal.RefVal

open Cert.ReferenceIdeal Cert.ReferenceIdeal.RRead Cert.Gin Idealize.ShloMosaic Idealize.ShloMosaic.ValueIdx

section AnyFloat

variable {F : FTy → Type} [FloatOps F]

/-- The neighbour sum: gather each edge's source row, scatter-add it into the edge's destination row. -/
def aggRF (e : (⟨S2x1600000, .i32⟩ : BufTy).Contents (Elt F)) (h : (⟨S100000x32, .f32⟩ : BufTy).Contents (Elt F)) :
    (⟨S100000x32, .f32⟩ : BufTy).Contents (Elt F) :=
  Host.scatterAdd scatter_S100000x32_S1600000x1_S1600000x32_1_0_0_1 (val_main_v31 (F := F)) (val_main_v32 (F := F) e)
    (Host.gather gather_S100000x32_S1600000x1_S1600000x32_1_0_n_n_0_1_132 h (val_main_v29 (F := F) e))

/-- The sum of the node rows of each graph. -/
def poolRF (b : (⟨S100000, .i32⟩ : BufTy).Contents (Elt F)) (h : (⟨S100000x32, .f32⟩ : BufTy).Contents (Elt F)) :
    (⟨S1000x32, .f32⟩ : BufTy).Contents (Elt F) :=
  Host.scatterAdd scatter_S1000x32_S100000x1_S100000x32_1_0_0_1 (val_main_v293 (F := F)) (val_main_v294 (F := F) b) h

variable (x0 : (⟨S100000x128, .f32⟩ : BufTy).Contents (Elt F)) (x1 : (⟨S2x1600000, .i32⟩ : BufTy).Contents (Elt F))
  (x2 : (⟨S100000, .i32⟩ : BufTy).Contents (Elt F)) (x3 : (⟨S128x32, .f32⟩ : BufTy).Contents (Elt F))
  (x4 x5 x6 x7 x8 : (⟨S32, .f32⟩ : BufTy).Contents (Elt F)) (x9 : (⟨S32x32, .f32⟩ : BufTy).Contents (Elt F))
  (x10 : (⟨S32, .f32⟩ : BufTy).Contents (Elt F)) (x11 : (⟨S32x32, .f32⟩ : BufTy).Contents (Elt F))
  (x12 : (⟨S32, .f32⟩ : BufTy).Contents (Elt F)) (x13 : (⟨S3x32x32, .f32⟩ : BufTy).Contents (Elt F))
  (x14 x15 x16 x17 x18 : (⟨S3x32, .f32⟩ : BufTy).Contents (Elt F)) (x19 : (⟨S3x32x32, .f32⟩ : BufTy).Contents (Elt F))
  (x20 : (⟨S3x32, .f32⟩ : BufTy).Contents (Elt F)) (x21 x22 x23 x24 : (⟨S4x32, .f32⟩ : BufTy).Contents (Elt F))
  (x25 : (⟨S32x32, .f32⟩ : BufTy).Contents (Elt F)) (x26 x27 x28 x29 x30 : (⟨S32, .f32⟩ : BufTy).Contents (Elt F))
  (x31 : (⟨S32x10, .f32⟩ : BufTy).Contents (Elt F)) (x32 : (⟨S10, .f32⟩ : BufTy).Contents (Elt F))

theorem agg0_eqF : val_main_v33 (F := F) x0 x1 x3 x4 x5 x6 x7 x8 = aggRF x1 (val_main_v23 (F := F) x0 x3 x4 x5 x6 x7 x8) := rfl
theorem agg1_eqF : val_main_v77 (F := F) x0 x1 x3 x4 x5 x6 x7 x8 x9 x10 x11 x12 x21 x22 x23 x24 = aggRF x1 (val_main_v67 (F := F) x0 x1 x3 x4 x5 x6 x7 x8 x9 x10 x11 x12 x21 x22 x23 x24) := rfl
theorem agg2_eqF : val_main_v152 (F := F) x0 x1 x3 x4 x5 x6 x7 x8 x9 x10 x11 x12 x13 x14 x15 x16 x17 x18 x19 x20 x21 x22 x23 x24 = aggRF x1 (val_main_v142 (F := F) x0 x1 x3 x4 x5 x6 x7 x8 x9 x10 x11 x12 x13 x14 x15 x16 x17 x18 x19 x20 x21 x22 x23 x24) := rfl
theorem agg3_eqF : val_main_v227 (F := F) x0 x1 x3 x4 x5 x6 x7 x8 x9 x10 x11 x12 x13 x14 x15 x16 x17 x18 x19 x20 x21 x22 x23 x24 = aggRF x1 (val_main_v217 (F := F) x0 x1 x3 x4 x5 x6 x7 x8 x9 x10 x11 x12 x13 x14 x15 x16 x17 x18 x19 x20 x21 x22 x23 x24) := rfl
theorem pool_eqF : val_main_v295 (F := F) x0 x1 x2 x3 x4 x5 x6 x7 x8 x9 x10 x11 x12 x13 x14 x15 x16 x17 x18 x19 x20 x21 x22 x23 x24 = poolRF x2 (val_main_v292 (F := F) x0 x1 x3 x4 x5 x6 x7 x8 x9 x10 x11 x12 x13 x14 x15 x16 x17 x18 x19 x20 x21 x22 x23 x24) := rfl

end AnyFloat

abbrev aggR (e : (⟨S2x1600000, .i32⟩ : BufTy).Contents (Elt Ideal)) (h : Arr2 100000 32) : Arr2 100000 32 := aggRF (F := Ideal) e h

abbrev poolR (b : (⟨S100000, .i32⟩ : BufTy).Contents (Elt Ideal)) (h : Arr2 100000 32) : Arr2 1000 32 := poolRF (F := Ideal) b h

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x32, .f32⟩ : BufTy).Contents (Elt Ideal))
  (x4 x5 x6 x7 x8 : (⟨S32, .f32⟩ : BufTy).Contents (Elt Ideal)) (x9 : (⟨S32x32, .f32⟩ : BufTy).Contents (Elt Ideal))
  (x10 : (⟨S32, .f32⟩ : BufTy).Contents (Elt Ideal)) (x11 : (⟨S32x32, .f32⟩ : BufTy).Contents (Elt Ideal))
  (x12 : (⟨S32, .f32⟩ : BufTy).Contents (Elt Ideal)) (x13 : (⟨S3x32x32, .f32⟩ : BufTy).Contents (Elt Ideal))
  (x14 x15 x16 x17 x18 : (⟨S3x32, .f32⟩ : BufTy).Contents (Elt Ideal)) (x19 : (⟨S3x32x32, .f32⟩ : BufTy).Contents (Elt Ideal))
  (x20 : (⟨S3x32, .f32⟩ : BufTy).Contents (Elt Ideal)) (x21 x22 x23 x24 : (⟨S4x32, .f32⟩ : BufTy).Contents (Elt Ideal))
  (x25 : (⟨S32x32, .f32⟩ : BufTy).Contents (Elt Ideal)) (x26 x27 x28 x29 x30 : (⟨S32, .f32⟩ : BufTy).Contents (Elt Ideal))
  (x31 : (⟨S32x10, .f32⟩ : BufTy).Contents (Elt Ideal)) (x32 : (⟨S10, .f32⟩ : BufTy).Contents (Elt Ideal))

/-- The reference's stages compose exactly as `net` composes them, with the quotient normalisation. -/
theorem ref_net :
    val_main_v320 (F := Ideal) x0 x1 x2 x3 x4 x5 x6 x7 x8 x9 x10 x11 x12 x13 x14 x15 x16 x17 x18 x19 x20 x21 x22 x23 x24 x25 x26 x27 x28 x29 x30 x31 x32
      = net normDiv (aggR x1) (poolR x2) (x0 : Arr2 100000 128) (x3 : Arr2 128 32) x4 x5 x6 x7 x8 (x9 : Arr2 32 32) x10 (x11 : Arr2 32 32) x12
          x13 x14 x15 x16 x17 x18 x19 x20 x21 x22 x23 x24 (x25 : Arr2 32 32) x26 x27 x28 x29 x30 (x31 : Arr2 32 10) x32 := by
  refine net_of_stages normDiv (aggR x1) (poolR x2) _ _ _ _ _ _ _ _ _ _ _ _ _ _ _ _ _ _ _ _ _ _ _ _ _ _ _ _ _ _ _
    (val_main_v23 (F := Ideal) x0 x3 x4 x5 x6 x7 x8) (val_main_v67 (F := Ideal) x0 x1 x3 x4 x5 x6 x7 x8 x9 x10 x11 x12 x21 x22 x23 x24) (val_main_v142 (F := Ideal) x0 x1 x3 x4 x5 x6 x7 x8 x9 x10 x11 x12 x13 x14 x15 x16 x17 x18 x19 x20 x21 x22 x23 x24)
    (val_main_v217 (F := Ideal) x0 x1 x3 x4 x5 x6 x7 x8 x9 x10 x11 x12 x13 x14 x15 x16 x17 x18 x19 x20 x21 x22 x23 x24) (val_main_v292 (F := Ideal) x0 x1 x3 x4 x5 x6 x7 x8 x9 x10 x11 x12 x13 x14 x15 x16 x17 x18 x19 x20 x21 x22 x23 x24) _ ?_ ?_ ?_ ?_ ?_ ?_
  · exact stage_pre x0 x3 x4 x5 x6 x7 x8
  · exact (stage_conv0 x0 x1 x3 x4 x5 x6 x7 x8 x9 x10 x11 x12 x21 x22 x23 x24).trans (by rw [agg0_eqF])
  · exact (stage_convA x0 x1 x3 x4 x5 x6 x7 x8 x9 x10 x11 x12 x13 x14 x15 x16 x17 x18 x19 x20 x21 x22 x23 x24).trans (by rw [agg1_eqF])
  · exact (stage_convB x0 x1 x3 x4 x5 x6 x7 x8 x9 x10 x11 x12 x13 x14 x15 x16 x17 x18 x19 x20 x21 x22 x23 x24).trans (by rw [agg2_eqF])
  · exact (stage_convC x0 x1 x3 x4 x5 x6 x7 x8 x9 x10 x11 x12 x13 x14 x15 x16 x17 x18 x19 x20 x21 x22 x23 x24).trans (by rw [agg3_eqF])
  · exact (stage_post x0 x1 x2 x3 x4 x5 x6 x7 x8 x9 x10 x11 x12 x13 x14 x15 x16 x17 x18 x19 x20 x21 x22 x23 x24 x25 x26 x27 x28 x29 x30 x31 x32).trans (by rw [pool_eqF])

end Cert.ReferenceIdeal.RefVal

end
-- ==== Proof.RRun.lean ====
import proofs.«170228_j49160195670360_2_alg».proof.Proof.ROps
import proofs.«170228_j49160195670360_2_alg».proof.Proof.RRead

noncomputable section

namespace Cert.ReferenceIdeal.RRun

open Cert.ReferenceIdeal Cert.ReferenceIdeal.Gen Cert.ReferenceIdeal.ROps Cert.ReferenceIdeal.RRead Idealize.ShloMosaic Idealize.ShloMosaic.TcCoe Idealize.SL.Sem Idealize.ShloMosaic.StableHlo

variable {F : FTy → Type} [FloatOps F]

/-- The program's operations, stage after stage. -/
abbrev all : List (HloOp τ sig (Elt F)) := ops0 ++ (ops1 ++ (ops2 ++ (ops3 ++ (ops4 ++ ops5))))

set_option maxRecDepth 8192 in
set_option maxHeartbeats 4000000 in
theorem main_part0_eq (c : Dev nD) : main_part0 (F := F) c = seq (all.take 64) := rfl
set_option maxRecDepth 8192 in
set_option maxHeartbeats 4000000 in
theorem main_part1_eq (c : Dev nD) : main_part1 (F := F) c = seq ((all.drop 64).take 64) := rfl
set_option maxRecDepth 8192 in
set_option maxHeartbeats 4000000 in
theorem main_part2_eq (c : Dev nD) : main_part2 (F := F) c = seq ((all.drop 128).take 62) := rfl
set_option maxRecDepth 8192 in
set_option maxHeartbeats 4000000 in
theorem main_part3_eq (c : Dev nD) : main_part3 (F := F) c = seq ((all.drop 190).take 64) := rfl
set_option maxRecDepth 8192 in
set_option maxHeartbeats 4000000 in
theorem main_part4_eq (c : Dev nD) : main_part4 (F := F) c = seq ((all.drop 254).take 62) := rfl
set_option maxRecDepth 8192 in
set_option maxHeartbeats 4000000 in
theorem main_part5_eq (c : Dev nD) : main_part5 (F := F) c = seq (all.drop 316) := rfl

set_option maxRecDepth 8192 in
set_option maxHeartbeats 4000000 in
theorem all_split : (all : List (HloOp τ sig (Elt F))) = all.take 64 ++ ((all.drop 64).take 64 ++ ((all.drop 128).take 62 ++ ((all.drop 190).take 64 ++ ((all.drop 254).take 62 ++ (all.drop 316))))) := rfl

theorem main_eq (c : Dev nD) : main (F := F) c = seq all := by
  rw [all_split]
  simp only [seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32]

abbrev args' : List (Ref sig .tc) := main_v1 :: main_v3 :: args

/-- What the run needs of one operation: its buffers are the program's own, it allocates none, and it writes none of `K`. -/
abbrev Ok (K : List (Ref sig .tc)) (op : HloOp τ sig (Elt F)) : Prop :=
  (op.bufs ⊆ tcRefs τ sig ∧ op.fresh = ∅) ∧ ∀ r ∈ K, Proc.devRef (τ := τ) .tc r ∉ op.writes

theorem not_written {K : List (Ref sig .tc)} {y : Ref sig .tc} (hy : y ∉ K) {S : Finset (DevRef τ sig)}
    (hS : S = {Proc.devRef .tc y}) : ∀ r ∈ K, Proc.devRef (τ := τ) .tc r ∉ S := by
  subst hS
  exact fun r hr hm => hy (Proc.devRef_injective _ (Finset.mem_singleton.mp hm) ▸ hr)

local macro "ok_each" : tactic => `(tactic| (
  intro _ h
  (repeat (cases h with
    | head => exact ⟨⟨by simp only [nullary_bufs_sub, unary_bufs_sub, binary_bufs_sub, ternary_bufs_sub, quaternary_bufs_sub, reshape_bufs_sub, binaryIndexed_bufs_sub, nary_bufs_sub, unaryIndexed_bufs_sub], rfl⟩, not_written (by decide) rfl⟩
    | tail _ h => ?_))
  exact nomatch h))

set_option maxRecDepth 8192 in
set_option maxHeartbeats 4000000 in
theorem ops0_ok : ∀ op ∈ (ops0 : List (HloOp τ sig (Elt F))), Ok args op := by ok_each
set_option maxRecDepth 8192 in
set_option maxHeartbeats 4000000 in
theorem ops1_ok : ∀ op ∈ (ops1 : List (HloOp τ sig (Elt F))), Ok args' op := by ok_each
set_option maxRecDepth 8192 in
set_option maxHeartbeats 4000000 in
theorem ops2_ok : ∀ op ∈ (ops2 : List (HloOp τ sig (Elt F))), Ok args' op := by ok_each
set_option maxRecDepth 8192 in
set_option maxHeartbeats 4000000 in
theorem ops3_ok : ∀ op ∈ (ops3 : List (HloOp τ sig (Elt F))), Ok args' op := by ok_each
set_option maxRecDepth 8192 in
set_option maxHeartbeats 4000000 in
theorem ops4_ok : ∀ op ∈ (ops4 : List (HloOp τ sig (Elt F))), Ok args' op := by ok_each
set_option maxRecDepth 8192 in
set_option maxHeartbeats 4000000 in
theorem ops5_ok : ∀ op ∈ (ops5 : List (HloOp τ sig (Elt F))), Ok args' op := by ok_each

theorem ops_ok : ∀ op ∈ (all : List (HloOp τ sig (Elt F))), op.bufs ⊆ tcRefs τ sig ∧ op.fresh = ∅ := by
  intro op h
  simp only [all, List.mem_append] at h
  rcases h with h | h | h | h | h | h
  exacts [(ops0_ok op h).1, (ops1_ok op h).1, (ops2_ok op h).1, (ops3_ok op h).1, (ops4_ok op h).1, (ops5_ok op h).1]

/-- A buffer of `K` keeps its contents through operations that write none of `K`. -/
theorem keep {K : List (Ref sig .tc)} {ops : List (HloOp τ sig (Elt F))} (h : ∀ op ∈ ops, Ok K op) (V : Valuation τ sig (Elt F))
    {r : Ref sig .tc} (hr : r ∈ K) : after ops V (Proc.devRef .tc r) = V (Proc.devRef .tc r) :=
  after_of_forall_not_mem ops V fun op ho => (h op ho).2 r hr

/-- The argument arrays of a valuation. -/
abbrev rd (V : Valuation τ sig (Elt F)) (r : Ref sig .tc) : (Proc.devRef (τ := τ) .tc r).ty.Contents (Elt F) := V (Proc.devRef .tc r)

section Stages

variable (a : (r : Ref sig .tc) → (Proc.devRef (τ := τ) .tc r).ty.Contents (Elt F))

def out0 := val_main_v23 (F := F) (a main_arg0) (a main_arg3) (a main_arg4) (a main_arg5) (a main_arg6) (a main_arg7) (a main_arg8)
def out1 := val_main_v67 (F := F) (a main_arg0) (a main_arg1) (a main_arg3) (a main_arg4) (a main_arg5) (a main_arg6) (a main_arg7) (a main_arg8) (a main_arg9) (a main_arg10) (a main_arg11) (a main_arg12) (a main_arg21) (a main_arg22) (a main_arg23) (a main_arg24)
def out2 := val_main_v142 (F := F) (a main_arg0) (a main_arg1) (a main_arg3) (a main_arg4) (a main_arg5) (a main_arg6) (a main_arg7) (a main_arg8) (a main_arg9) (a main_arg10) (a main_arg11) (a main_arg12) (a main_arg13) (a main_arg14) (a main_arg15) (a main_arg16) (a main_arg17) (a main_arg18) (a main_arg19) (a main_arg20) (a main_arg21) (a main_arg22) (a main_arg23) (a main_arg24)
def out3 := val_main_v217 (F := F) (a main_arg0) (a main_arg1) (a main_arg3) (a main_arg4) (a main_arg5) (a main_arg6) (a main_arg7) (a main_arg8) (a main_arg9) (a main_arg10) (a main_arg11) (a main_arg12) (a main_arg13) (a main_arg14) (a main_arg15) (a main_arg16) (a main_arg17) (a main_arg18) (a main_arg19) (a main_arg20) (a main_arg21) (a main_arg22) (a main_arg23) (a main_arg24)
def out4 := val_main_v292 (F := F) (a main_arg0) (a main_arg1) (a main_arg3) (a main_arg4) (a main_arg5) (a main_arg6) (a main_arg7) (a main_arg8) (a main_arg9) (a main_arg10) (a main_arg11) (a main_arg12) (a main_arg13) (a main_arg14) (a main_arg15) (a main_arg16) (a main_arg17) (a main_arg18) (a main_arg19) (a main_arg20) (a main_arg21) (a main_arg22) (a main_arg23) (a main_arg24)
def out5 := val_main_v320 (F := F) (a main_arg0) (a main_arg1) (a main_arg2) (a main_arg3) (a main_arg4) (a main_arg5) (a main_arg6) (a main_arg7) (a main_arg8) (a main_arg9) (a main_arg10) (a main_arg11) (a main_arg12) (a main_arg13) (a main_arg14) (a main_arg15) (a main_arg16) (a main_arg17) (a main_arg18) (a main_arg19) (a main_arg20) (a main_arg21) (a main_arg22) (a main_arg23) (a main_arg24) (a main_arg25) (a main_arg26) (a main_arg27) (a main_arg28) (a main_arg29) (a main_arg30) (a main_arg31) (a main_arg32)

end Stages

variable (V : Valuation τ sig (Elt F))

/-- `U` holds `V`'s argument arrays and the two edge-index rows cut from them. -/
structure At (U : Valuation τ sig (Elt F)) : Prop where
  kept : ∀ r ∈ args, U (Proc.devRef .tc r) = V (Proc.devRef .tc r)
  v1 : U (Proc.devRef .tc main_v1) = val_main_v1 (F := F) (rd V main_arg1)
  v3 : U (Proc.devRef .tc main_v3) = val_main_v3 (F := F) (rd V main_arg1)

variable {V}

theorem At.arg {U : Valuation τ sig (Elt F)} (h : At V U) (r : Ref sig .tc) (hr : r ∈ args := by decide) :
    U (Proc.devRef .tc r) = V (Proc.devRef .tc r) := h.kept r hr

theorem At.step {U : Valuation τ sig (Elt F)} {ops : List (HloOp τ sig (Elt F))} (h : At V U) (ho : ∀ op ∈ ops, Ok args' op) : At V (after ops U) :=
  ⟨fun r hr => (keep ho U (List.mem_cons_of_mem _ (List.mem_cons_of_mem _ hr))).trans (h.kept r hr),
    (keep ho U (by decide)).trans h.v1, (keep ho U (by decide)).trans h.v3⟩

variable (V)

set_option maxRecDepth 8192 in
set_option maxHeartbeats 16000000 in
theorem stage0_v1 : after ops0 V (Proc.devRef .tc main_v1) = val_main_v1 (F := F) (rd V main_arg1) := by
  simp only [ops0]
  after_results_simp
  rfl

set_option maxRecDepth 8192 in
set_option maxHeartbeats 16000000 in
theorem stage0_v3 : after ops0 V (Proc.devRef .tc main_v3) = val_main_v3 (F := F) (rd V main_arg1) := by
  simp only [ops0]
  after_results_simp
  rfl

set_option maxRecDepth 8192 in
set_option maxHeartbeats 16000000 in
theorem stage0 : after ops0 V (Proc.devRef .tc main_v23) = out0 (rd V) := by
  simp only [ops0]
  after_results_simp
  rfl

set_option maxRecDepth 8192 in
set_option maxHeartbeats 16000000 in
theorem stage1 {U : Valuation τ sig (Elt F)} (h : At V U) (hp : U (Proc.devRef .tc main_v23) = out0 (rd V)) :
    after ops1 U (Proc.devRef .tc main_v67) = out1 (rd V) := by
  simp only [ops1]
  after_results_simp
  rw [h.v1, hp, h.v3, h.arg main_arg9, h.arg main_arg10, h.arg main_arg11, h.arg main_arg12, h.arg main_arg21, h.arg main_arg22, h.arg main_arg23, h.arg main_arg24]
  rfl

set_option maxRecDepth 8192 in
set_option maxHeartbeats 16000000 in
theorem stage2 {U : Valuation τ sig (Elt F)} (h : At V U) (hp : U (Proc.devRef .tc main_v67) = out1 (rd V)) :
    after ops2 U (Proc.devRef .tc main_v142) = out2 (rd V) := by
  simp only [ops2]
  after_results_simp
  rw [h.v1, hp, h.v3, h.arg main_arg13, h.arg main_arg14, h.arg main_arg15, h.arg main_arg16, h.arg main_arg17, h.arg main_arg18, h.arg main_arg19, h.arg main_arg20, h.arg main_arg21, h.arg main_arg22, h.arg main_arg23, h.arg main_arg24]
  rfl

set_option maxRecDepth 8192 in
set_option maxHeartbeats 16000000 in
theorem stage3 {U : Valuation τ sig (Elt F)} (h : At V U) (hp : U (Proc.devRef .tc main_v142) = out2 (rd V)) :
    after ops3 U (Proc.devRef .tc main_v217) = out3 (rd V) := by
  simp only [ops3]
  after_results_simp
  rw [h.v1, hp, h.v3, h.arg main_arg13, h.arg main_arg14, h.arg main_arg15, h.arg main_arg16, h.arg main_arg17, h.arg main_arg18, h.arg main_arg19, h.arg main_arg20, h.arg main_arg21, h.arg main_arg22, h.arg main_arg23, h.arg main_arg24]
  rfl

set_option maxRecDepth 8192 in
set_option maxHeartbeats 16000000 in
theorem stage4 {U : Valuation τ sig (Elt F)} (h : At V U) (hp : U (Proc.devRef .tc main_v217) = out3 (rd V)) :
    after ops4 U (Proc.devRef .tc main_v292) = out4 (rd V) := by
  simp only [ops4]
  after_results_simp
  rw [h.v1, hp, h.v3, h.arg main_arg13, h.arg main_arg14, h.arg main_arg15, h.arg main_arg16, h.arg main_arg17, h.arg main_arg18, h.arg main_arg19, h.arg main_arg20, h.arg main_arg21, h.arg main_arg22, h.arg main_arg23, h.arg main_arg24]
  rfl

set_option maxRecDepth 8192 in
set_option maxHeartbeats 16000000 in
theorem stage5 {U : Valuation τ sig (Elt F)} (h : At V U) (hp : U (Proc.devRef .tc main_v292) = out4 (rd V)) :
    after ops5 U (Proc.devRef .tc main_v320) = out5 (rd V) := by
  simp only [ops5]
  after_results_simp
  rw [h.arg main_arg2, hp, h.arg main_arg25, h.arg main_arg26, h.arg main_arg29, h.arg main_arg30, h.arg main_arg27, h.arg main_arg28, h.arg main_arg31, h.arg main_arg32]
  rfl

/-- Through the whole line the argument arrays are kept and the result buffer ends at the last stage's function of them. -/
theorem fold : (∀ r ∈ args, after all V (Proc.devRef .tc r) = V (Proc.devRef .tc r))
    ∧ after all V (Proc.devRef .tc main_v320) = out5 (rd V) := by
  simp only [all, after_append]
  have h1 : At V (after ops0 V) := ⟨fun r hr => keep ops0_ok V hr, stage0_v1 V, stage0_v3 V⟩
  have h2 := h1.step ops1_ok
  have h3 := h2.step ops2_ok
  have h4 := h3.step ops3_ok
  have h5 := h4.step ops4_ok
  exact ⟨(h5.step ops5_ok).kept, stage5 V h5 (stage4 V h4 (stage3 V h3 (stage2 V h2 (stage1 V h1 (stage0 V)))))⟩

/-- Every weakly fair execution of the reference terminates without a fault; the result array ends at the last stage's
    function of the argument arrays as launched, and the argument arrays end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v320) = out5 (fun b => m ((c.tc : Thread nD τ).loc b))
      ∧ args.Forall fun b => r.2.mem ((c.tc : Thread nD τ).loc b) = m ((c.tc : Thread nD τ).loc b) :=
  (θ_run defs _ _).mono (fun _ h c => ⟨(h c main_v320).trans (fold _).2,
      List.forall_iff_forall_mem.mpr fun b hb => (h c b).trans ((fold _).1 b hb)⟩)
    (run_seq scopedRefs_eq scopedSems_eq defs main (fun _ => all) main_eq
      (fun _ => List.forall_iff_forall_mem.mpr fun op h => (ops_ok op h).1) m ρ (fun _ op h => (ops_ok op h).2))

end Cert.ReferenceIdeal.RRun

end
-- ==== Proof.PreDecode.lean ====
import proofs.«170228_j49160195670360_2_alg».proof.Pre_finite_inputs
import proofs.«170228_j49160195670360_2_alg».proof.Proof.Gen.Pre_finite_inputs
import proofs.«170228_j49160195670360_2_alg».proof.Proof.Net
import Idealize.ShloMosaic.PureOps.Ideal.Laws
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Cert.Gin Idealize.ShloMosaic Idealize.ShloMosaic.ValueIdx

instance : Subsingleton S_.Idx := ⟨fun a b => funext fun d => d.elim0⟩

theorem elem_pos {s : Shape} (a : FVec Ideal s .f32) (hb : S_.BroadcastsInDim s (![] : Fin 0 → Fin s.rank)) (h0 : 0 < S_.numel)
    (i : s.Idx)
    (e : cmpf .ogt (addf a (broadcastInDim s ![] hb (constant S_ .f32 0x3727C5AC#32)))
          (broadcastInDim s ![] hb (constant S_ .f32 0x00000000#32)) i = 1#1) : 0 < a i + eps := by
  rw [cmpf_apply, Ideal.cmpf_def, addf_apply, StableHlo.Predicate.bcast_scalar hb h0, StableHlo.Predicate.bcast_scalar hb h0,
    constant_apply, constant_apply, Ideal.ofBits_zero_f32] at e
  have e' : BitVec.ofBool (decide (0 < a i + eps)) = 1#1 := e
  exact of_decide_eq_true ((StableHlo.Predicate.ofBool_eq_one_iff _).1 e')

theorem all_pos {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .ogt (addf a (broadcastInDim s ![] hb (constant S_ .f32 0x3727C5AC#32)))
            (broadcastInDim s ![] hb (constant S_ .f32 0x00000000#32)))
          (constantI S_ 1 1#1) hr h0 ix0 = 1#1) (i : s.Idx) : 0 < a i + eps :=
  elem_pos a hb h0 i (Host.reduce_andi_all _ _ hr h0 ix0 e i)

def Pos (a8 : Arr1 32) (a18 : Arr2 3 32) (a24 : Arr2 4 32) (a30 : Arr1 32) : Prop :=
  (∀ i, 0 < a8 i + eps) ∧ (∀ i, 0 < a18 i + eps) ∧ (∀ i, 0 < a24 i + eps) ∧ (∀ i, 0 < a30 i + eps)

variable [hF : Cert.Pre_finite_inputs.Facts]

theorem part10 (a30 : FVec Ideal S32 .f32) (v165 : IVec S_ 1) (v169 : IVec S4x32 1)
    (h : fn_part10 (F := Ideal) a30 v165 v169 ix0 = 1#1) :
    v165 ix0 = 1#1 ∧ (∀ i, v169 i = 1#1) ∧ ∀ i, 0 < a30 i + eps := by
  unfold fn_part10 at h
  obtain ⟨h1, h2⟩ := IntOp.andi_eq_one.1 h
  obtain ⟨h3, h4⟩ := IntOp.andi_eq_one.1 h1
  exact ⟨h3, fun i => Host.reduce_andi_all _ _ _ _ ix0 h4 i, fun i => all_pos a30 _ _ _ h2 i⟩

theorem part9 (a8 : FVec Ideal S32 .f32) (a18 : FVec Ideal S3x32 .f32) (a24 : FVec Ideal S4x32 .f32) (a30 : FVec Ideal S32 .f32) (v153 : IVec S_ 1)
    (h : fn_part9 (F := Ideal) a8 a18 a24 a30 v153 ix0 = 1#1) : Pos a8 a18 a24 a30 := by
  unfold fn_part9 at h
  obtain ⟨h1, h24, h30⟩ := part10 _ _ _ h
  obtain ⟨h2, h18⟩ := IntOp.andi_eq_one.1 h1
  obtain ⟨-, h8⟩ := IntOp.andi_eq_one.1 h2
  exact ⟨fun i => all_pos a8 _ _ _ h8 i, fun i => all_pos a18 _ _ _ h18 i, fun i => elem_pos a24 Facts.bcast_S_S4x32 Facts.h_S_ i (h24 i), h30⟩

theorem variances_pos (a0 : FVec Ideal S100000x128 .f32) (a1 : IVec S2x1600000 32) (a2 : IVec S100000 32) (a3 : FVec Ideal S128x32 .f32) (a4 : FVec Ideal S32 .f32) (a5 : FVec Ideal S32 .f32) (a6 : FVec Ideal S32 .f32) (a7 : FVec Ideal S32 .f32) (a8 : FVec Ideal S32 .f32) (a9 : FVec Ideal S32x32 .f32) (a10 : FVec Ideal S32 .f32) (a11 : FVec Ideal S32x32 .f32) (a12 : FVec Ideal S32 .f32) (a13 : FVec Ideal S3x32x32 .f32) (a14 : FVec Ideal S3x32 .f32) (a15 : FVec Ideal S3x32 .f32) (a16 : FVec Ideal S3x32 .f32) (a17 : FVec Ideal S3x32 .f32) (a18 : FVec Ideal S3x32 .f32) (a19 : FVec Ideal S3x32x32 .f32) (a20 : FVec Ideal S3x32 .f32) (a21 : FVec Ideal S4x32 .f32) (a22 : FVec Ideal S4x32 .f32) (a23 : FVec Ideal S4x32 .f32) (a24 : FVec Ideal S4x32 .f32) (a25 : FVec Ideal S32x32 .f32) (a26 : FVec Ideal S32 .f32) (a27 : FVec Ideal S32 .f32) (a28 : FVec Ideal S32 .f32) (a29 : FVec Ideal S32 .f32) (a30 : FVec Ideal S32 .f32) (a31 : FVec Ideal S32x10 .f32) (a32 : FVec Ideal S10 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 = fun _ => 1#1) :
    (∀ i, 0 < (a8 : Arr1 32) i + eps) ∧ (∀ i, 0 < (a18 : Arr2 3 32) i + eps)
      ∧ (∀ i, 0 < (a24 : Arr2 4 32) i + eps) ∧ (∀ i, 0 < (a30 : Arr1 32) i + eps) := by
  have e := congrFun h ix0
  unfold Cert.Pre_finite_inputs.fn fn_part1 fn_part2 fn_part3 fn_part4 fn_part5 fn_part6 fn_part7 fn_part8 at e
  exact part9 _ _ _ _ _ e

end Cert.Pre_finite_inputs.Decode

end
-- ==== Proof.lean ====
/-
  A graph isomorphism network run block by block over the nodes against the same network on whole arrays, over the
  extended reals. Both results are the one function `Cert.Gin.net` of the argument arrays; the tiled program scales by
  the reciprocal square root of each shifted variance where the reference divides by its square root, and the
  precondition keeps every shifted variance positive, where the two agree.
-/
import proofs.«170228_j49160195670360_2_alg».proof.Defs
import proofs.«170228_j49160195670360_2_alg».proof.Proof.Gen.Kernel
import proofs.«170228_j49160195670360_2_alg».proof.Proof.Gen.Kernel.Skeleton
import proofs.«170228_j49160195670360_2_alg».proof.Proof.Gen.Kernel.Launch
import proofs.«170228_j49160195670360_2_alg».proof.Proof.Gen.Kernel.Points
import proofs.«170228_j49160195670360_2_alg».proof.Proof.Gen.Kernel.Frame
import proofs.«170228_j49160195670360_2_alg».proof.Proof.Gen.KernelIdeal
import proofs.«170228_j49160195670360_2_alg».proof.Proof.Gen.KernelIdeal.Skeleton
import proofs.«170228_j49160195670360_2_alg».proof.Proof.Gen.KernelIdeal.Launch
import proofs.«170228_j49160195670360_2_alg».proof.Proof.Gen.KernelIdeal.Points
import proofs.«170228_j49160195670360_2_alg».proof.Proof.Gen.KernelIdeal.Frame
import proofs.«170228_j49160195670360_2_alg».proof.Proof.Gen.ReferenceIdeal
import proofs.«170228_j49160195670360_2_alg».proof.Proof.Gen.Pre_finite_inputs
import proofs.«170228_j49160195670360_2_alg».proof.Proof.Net
import proofs.«170228_j49160195670360_2_alg».proof.Proof.KRun
import proofs.«170228_j49160195670360_2_alg».proof.Proof.KGlue
import proofs.«170228_j49160195670360_2_alg».proof.Proof.RChain
import proofs.«170228_j49160195670360_2_alg».proof.Proof.RRun
import proofs.«170228_j49160195670360_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Cert.Gin

/-- Both programs sum the neighbours' rows by the same operations. -/
theorem agg_eq (e : (⟨Cert.KernelIdeal.S2x1600000, .i32⟩ : BufTy).Contents (Elt Ideal)) : Cert.KernelIdeal.Val.aggK e = Cert.ReferenceIdeal.RefVal.aggR e := by
  funext h
  unfold Cert.KernelIdeal.Val.aggK Cert.KernelIdeal.Val.aggOf Cert.KernelIdeal.Val.srcOf Cert.KernelIdeal.Val.dstOf
  unfold Cert.ReferenceIdeal.RefVal.aggR Cert.ReferenceIdeal.RefVal.aggRF
  unfold Cert.ReferenceIdeal.RRead.val_main_v31 Cert.ReferenceIdeal.RRead.val_main_v32 Cert.ReferenceIdeal.RRead.val_main_v29
    Cert.ReferenceIdeal.RRead.val_main_v28 Cert.ReferenceIdeal.RRead.val_main_v27 Cert.ReferenceIdeal.RRead.val_main_v26
    Cert.ReferenceIdeal.RRead.val_main_v25 Cert.ReferenceIdeal.RRead.val_main_v24 Cert.ReferenceIdeal.RRead.val_main_v3
    Cert.ReferenceIdeal.RRead.val_main_v2 Cert.ReferenceIdeal.RRead.val_main_v1 Cert.ReferenceIdeal.RRead.val_main_v0
    Cert.ReferenceIdeal.RRead.val_main_cst_1 Cert.ReferenceIdeal.RRead.val_main_c Cert.ReferenceIdeal.RRead.val_main_c_0
  rfl

/-- … and the rows of each graph. -/
theorem pool_eq (b : (⟨Cert.KernelIdeal.S100000, .i32⟩ : BufTy).Contents (Elt Ideal)) : Cert.KernelIdeal.Val.poolK b = Cert.ReferenceIdeal.RefVal.poolR b := by
  funext h
  unfold Cert.KernelIdeal.Val.poolK Cert.ReferenceIdeal.RefVal.poolR Cert.ReferenceIdeal.RefVal.poolRF
  unfold Cert.ReferenceIdeal.RRead.val_main_v293 Cert.ReferenceIdeal.RRead.val_main_v294 Cert.ReferenceIdeal.RRead.val_main_cst_18
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RRun.run m ρ)

section
open Cert.KernelIdeal

variable (m : (ℓ : Loc nD τ sig) → Buf (Elt Ideal) ℓ) (c : Dev nD)

abbrev arg (r : Ref sig .tc) : Buf (Elt Ideal) ((c.tc : Thread nD τ).loc r) := m ((c.tc : Thread nD τ).loc r)

/-- The common result: the network, quotient form, of the tiled program's argument arrays on device `c`. -/
abbrev netOf : Arr2 1000 10 :=
  net normDiv (Cert.ReferenceIdeal.RefVal.aggR (arg m c main_arg1)) (Cert.ReferenceIdeal.RefVal.poolR (arg m c main_arg2)) (arg m c main_arg0) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) (arg m c main_arg32)

end

set_option maxHeartbeats 2000000 in
theorem algebraic : Cert.algebraic_KernelIdeal_ReferenceIdeal := fun m ρ m' ρ' hpre hagree =>
  ⟨fun c => netOf m c,
    (θ_run Cert.KernelIdeal.defs _ _).mono (fun _ h c => ⟨(h c).1.trans (by
        obtain ⟨h8, h18, h24, h30⟩ := Cert.Pre_finite_inputs.Decode.variances_pos _ _ _ _ _ _ _ _ _ _ _ _ _ _ _ _ _ _ _ _ _ _ _ _ _ _ _ _ _ _ _ _ _ (hpre c)
        rw [Cert.KernelIdeal.Val.result_eq m ρ c, net_rsqrt_eq_div _ _ _ _ _ _ _ _ _ _ _ _ _ _ _ _ _ _ _ _ _ _ _ _ _ _ _ _ _ _ _ _ _ h8 h18 h24 h30, agg_eq, pool_eq]), (h c).2⟩)
      (Cert.KernelIdeal.Gen.run_result (F := Ideal) m ρ),
    (θ_run Cert.ReferenceIdeal.defs _ _).mono (fun _ h c => ⟨(h c).1.trans
        ((Cert.ReferenceIdeal.RefVal.ref_net _ _ _ _ _ _ _ _ _ _ _ _ _ _ _ _ _ _ _ _ _ _ _ _ _ _ _ _ _ _ _ _ _).trans (by simp only [hagree c])), (h c).2⟩)
      (Cert.ReferenceIdeal.RRun.run m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
